-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x16 : Shape := ⟨2, ![8192, 16]⟩
abbrev S10240x16 : Shape := ⟨2, ![10240, 16]⟩
abbrev S8192 : Shape := ⟨1, ![8192]⟩
abbrev S10240 : Shape := ⟨1, ![10240]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S10240x16 : S_.BroadcastsInDim S10240x16 (![] : Fin 0 → Fin S10240x16.rank)
  reducesTo_S10240x16_S_d0_1 : S10240x16.ReducesTo [0, 1] S_
  bcast_S_S8192 : S_.BroadcastsInDim S8192 (![] : Fin 0 → Fin S8192.rank)
  reducesTo_S8192_S_d0 : S8192.ReducesTo [0] S_
  bcast_S_S10240 : S_.BroadcastsInDim S10240 (![] : Fin 0 → Fin S10240.rank)
  reducesTo_S10240_S_d0 : S10240.ReducesTo [0] S_

variable [Facts]

def fn_part2 {F : FTy → Type} [FloatOps F] (main_arg8 : IVec S10240 32) (main_arg9 : IVec S10240 32) (main_v30 : IVec S_ 1) (main_v32 : IVec S8192 1) : IVec S_ 1 :=
  let main_c_13 : IVec S_ 1 := constantI S_ 1 1#1
  let main_v33 : IVec S_ 1 := (fun x v => Host.reduce IntOp.andi x v reducesTo_S8192_S_d0 h_S_) main_v32 main_c_13
  let main_v34 : IVec S_ 1 := andi main_v30 main_v33
  let main_c_14 : IVec S_ 32 := constantI S_ 32 0#32
  let main_v35 : IVec S10240 32 := broadcastInDim S10240 ![] bcast_S_S10240 main_c_14
  let main_v36 : IVec S10240 1 := cmpi .sge main_arg8 main_v35
  let main_c_15 : IVec S_ 1 := constantI S_ 1 1#1
  let main_v37 : IVec S_ 1 := (fun x v => Host.reduce IntOp.andi x v reducesTo_S10240_S_d0 h_S_) main_v36 main_c_15
  let main_v38 : IVec S_ 1 := andi main_v34 main_v37
  let main_c_16 : IVec S_ 32 := constantI S_ 32 0#32
  let main_v39 : IVec S10240 32 := broadcastInDim S10240 ![] bcast_S_S10240 main_c_16
  let main_v40 : IVec S10240 1 := cmpi .sge main_arg9 main_v39
  let main_c_17 : IVec S_ 1 := constantI S_ 1 1#1
  let main_v41 : IVec S_ 1 := (fun x v => Host.reduce IntOp.andi x v reducesTo_S10240_S_d0 h_S_) main_v40 main_c_17
  let main_v42 : IVec S_ 1 := andi main_v38 main_v41
  main_v42

def fn_part1 {F : FTy → Type} [FloatOps F] (main_arg4 : IVec S8192 32) (main_arg5 : IVec S8192 32) (main_arg6 : IVec S8192 32) (main_arg7 : IVec S8192 32) (main_arg8 : IVec S10240 32) (main_arg9 : IVec S10240 32) (main_v13 : IVec S_ 1) (main_v16 : IVec S10240x16 1) : IVec S_ 1 :=
  let main_c_5 : IVec S_ 1 := constantI S_ 1 1#1
  let main_v17 : IVec S_ 1 := (fun x v => Host.reduce IntOp.andi x v reducesTo_S10240x16_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 0#32
  let main_v23 : IVec S8192 32 := broadcastInDim S8192 ![] bcast_S_S8192 main_c_8
  let main_v24 : IVec S8192 1 := cmpi .sge main_arg5 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  let main_c_10 : IVec S_ 32 := constantI S_ 32 0#32
  let main_v27 : IVec S8192 32 := broadcastInDim S8192 ![] bcast_S_S8192 main_c_10
  let main_v28 : IVec S8192 1 := cmpi .sge main_arg6 main_v27
  let main_c_11 : IVec S_ 1 := constantI S_ 1 1#1
  let main_v29 : IVec S_ 1 := (fun x v => Host.reduce IntOp.andi x v reducesTo_S8192_S_d0 h_S_) main_v28 main_c_11
  let main_v30 : IVec S_ 1 := andi main_v26 main_v29
  let main_c_12 : IVec S_ 32 := constantI S_ 32 0#32
  let main_v31 : IVec S8192 32 := broadcastInDim S8192 ![] bcast_S_S8192 main_c_12
  let main_v32 : IVec S8192 1 := cmpi .sge main_arg7 main_v31
  fn_part2 (F := F) main_arg8 main_arg9 main_v30 main_v32

def fn {F : FTy → Type} [FloatOps F] (main_arg0 : FVec F S4096x1024 .f32) (main_arg1 : FVec F S8192x16 .f32) (main_arg2 : FVec F S8192x16 .f32) (main_arg3 : FVec F S10240x16 .f32) (main_arg4 : IVec S8192 32) (main_arg5 : IVec S8192 32) (main_arg6 : IVec S8192 32) (main_arg7 : IVec S8192 32) (main_arg8 : IVec S10240 32) (main_arg9 : IVec S10240 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S10240x16 .f32 := Host.absf main_arg3
  let main_cst_4 : FVec F S_ .f32 := constant S_ .f32 0x7F800000#32
  let main_v15 : FVec F S10240x16 .f32 := broadcastInDim S10240x16 ![] bcast_S_S10240x16 main_cst_4
  let main_v16 : IVec S10240x16 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S8192x16 : Shape := ⟨2, ![8192, 16]⟩
abbrev S10240x16 : Shape := ⟨2, ![10240, 16]⟩
abbrev S8192 : Shape := ⟨1, ![8192]⟩
abbrev S10240 : Shape := ⟨1, ![10240]⟩
abbrev S16x4 : Shape := ⟨2, ![16, 4]⟩
abbrev S_ : Shape := ⟨0, ![]⟩
abbrev S8192x1 : Shape := ⟨2, ![8192, 1]⟩
abbrev S8192x4 : Shape := ⟨2, ![8192, 4]⟩
abbrev S10240x1 : Shape := ⟨2, ![10240, 1]⟩
abbrev S10240x4 : Shape := ⟨2, ![10240, 4]⟩
abbrev S1024x8192 : Shape := ⟨2, ![1024, 8192]⟩
abbrev S1x8192 : Shape := ⟨2, ![1, 8192]⟩
abbrev S4096x8192 : Shape := ⟨2, ![4096, 8192]⟩
abbrev S1024x1024 : Shape := ⟨2, ![1024, 1024]⟩
abbrev S1x1024 : Shape := ⟨2, ![1, 1024]⟩
abbrev S8192x8192 : Shape := ⟨2, ![8192, 8192]⟩
abbrev S8192x10240 : Shape := ⟨2, ![8192, 10240]⟩
abbrev S1x10240 : Shape := ⟨2, ![1, 10240]⟩
abbrev S4096x10240 : Shape := ⟨2, ![4096, 10240]⟩
abbrev S1024x512 : Shape := ⟨2, ![1024, 512]⟩
abbrev S1x512 : Shape := ⟨2, ![1, 512]⟩
abbrev S4096x10x1024 : Shape := ⟨3, ![4096, 10, 1024]⟩
abbrev S4096x10 : Shape := ⟨2, ![4096, 10]⟩

abbrev nBuf : Space → Nat
  | .hbm => 181
  | .vmem => 54
  | .smem => 0
  | _ => 0

abbrev hbmTy0_0 (i : Nat) : BufTy := match i % 128 with
  | 0 => ⟨S4096x1024, .f32⟩
  | 1 => ⟨S8192x16, .f32⟩
  | 2 => ⟨S8192x16, .f32⟩
  | 3 => ⟨S10240x16, .f32⟩
  | 4 => ⟨S8192, .i32⟩
  | 5 => ⟨S8192, .i32⟩
  | 6 => ⟨S8192, .i32⟩
  | 7 => ⟨S8192, .i32⟩
  | 8 => ⟨S10240, .i32⟩
  | 9 => ⟨S10240, .i32⟩
  | 10 => ⟨S16x4, .f32⟩
  | 11 => ⟨S_, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x16, .f32⟩
  | 18 => ⟨S8192x16, .f32⟩
  | 19 => ⟨S8192x16, .f32⟩
  | 20 => ⟨S_, .f32⟩
  | 21 => ⟨S8192, .f32⟩
  | 22 => ⟨S8192x1, .f32⟩
  | 23 => ⟨S8192x16, .f32⟩
  | 24 => ⟨S8192x16, .f32⟩
  | 25 => ⟨S8192x4, .f32⟩
  | 26 => ⟨S_, .f32⟩
  | 27 => ⟨S8192, .f32⟩
  | 28 => ⟨S_, .f32⟩
  | 29 => ⟨S8192, .f32⟩
  | 30 => ⟨S8192, .f32⟩
  | 31 => ⟨S8192x1, .f32⟩
  | 32 => ⟨S8192x16, .f32⟩
  | 33 => ⟨S8192x16, .f32⟩
  | 34 => ⟨S8192x16, .f32⟩
  | 35 => ⟨S_, .f32⟩
  | 36 => ⟨S8192, .f32⟩
  | 37 => ⟨S8192x1, .f32⟩
  | 38 => ⟨S8192x16, .f32⟩
  | 39 => ⟨S8192x16, .f32⟩
  | 40 => ⟨S8192x4, .f32⟩
  | 41 => ⟨S_, .f32⟩
  | 42 => ⟨S10240, .f32⟩
  | 43 => ⟨S_, .f32⟩
  | 44 => ⟨S10240, .f32⟩
  | 45 => ⟨S10240, .f32⟩
  | 46 => ⟨S10240x1, .f32⟩
  | 47 => ⟨S10240x16, .f32⟩
  | 48 => ⟨S10240x16, .f32⟩
  | 49 => ⟨S10240x16, .f32⟩
  | 50 => ⟨S_, .f32⟩
  | 51 => ⟨S10240, .f32⟩
  | 52 => ⟨S10240x1, .f32⟩
  | 53 => ⟨S10240x16, .f32⟩
  | 54 => ⟨S10240x16, .f32⟩
  | 55 => ⟨S10240x4, .f32⟩
  | 56 => ⟨S4096x1024, .bf16⟩
  | 57 => ⟨S_, .i32⟩
  | 58 => ⟨S_, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S1024x8192, .i32⟩
  | 66 => ⟨S1x8192, .i32⟩
  | 67 => ⟨S1024x8192, .i32⟩
  | 68 => ⟨S1024x8192, .i1⟩
  | 69 => ⟨S1024x8192, .bf16⟩
  | 70 => ⟨S_, .i32⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S1024x8192, .i32⟩
  | 79 => ⟨S1x8192, .i32⟩
  | 80 => ⟨S1024x8192, .i32⟩
  | 81 => ⟨S1024x8192, .i1⟩
  | 82 => ⟨S1024x8192, .bf16⟩
  | 83 => ⟨S8192x1, .f32⟩
  | 84 => ⟨S8192, .f32⟩
  | 85 => ⟨S1x8192, .f32⟩
  | 86 => ⟨S8192x1, .f32⟩
  | 87 => ⟨S8192, .f32⟩
  | 88 => ⟨S1x8192, .f32⟩
  | 89 => ⟨S8192x1, .f32⟩
  | 90 => ⟨S8192, .f32⟩
  | 91 => ⟨S1x8192, .f32⟩
  | 92 => ⟨S8192x1, .f32⟩
  | 93 => ⟨S8192, .f32⟩
  | 94 => ⟨S1x8192, .f32⟩
  | 95 => ⟨S4096x8192, .bf16⟩
  | 96 => ⟨S_, .i32⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192x8192, .i32⟩
  | 105 => ⟨S1x8192, .i32⟩
  | 106 => ⟨S8192x8192, .i32⟩
  | 107 => ⟨S8192x8192, .i1⟩
  | 108 => ⟨S8192x8192, .bf16⟩
  | 109 => ⟨S_, .i32⟩
  | 110 => ⟨S_, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S8192x8192, .i32⟩
  | 118 => ⟨S1x8192, .i32⟩
  | 119 => ⟨S8192x8192, .i32⟩
  | 120 => ⟨S8192x8192, .i1⟩
  | 121 => ⟨S8192x8192, .bf16⟩
  | 122 => ⟨S8192x1, .f32⟩
  | 123 => ⟨S8192, .f32⟩
  | 124 => ⟨S1x8192, .f32⟩
  | 125 => ⟨S8192x1, .f32⟩
  | 126 => ⟨S8192, .f32⟩
  | 127 => ⟨S1x8192, .f32⟩
  | _ => ⟨S4096x1024, .f32⟩

abbrev hbmTy0_1 (i : Nat) : BufTy := match i % 128 with
  | 0 => ⟨S8192x1, .f32⟩
  | 1 => ⟨S8192, .f32⟩
  | 2 => ⟨S1x8192, .f32⟩
  | 3 => ⟨S8192x1, .f32⟩
  | 4 => ⟨S8192, .f32⟩
  | 5 => ⟨S1x8192, .f32⟩
  | 6 => ⟨S4096x8192, .bf16⟩
  | 7 => ⟨S_, .i32⟩
  | 8 => ⟨S_, .i32⟩
  | 9 => ⟨S_, .i32⟩
  | 10 => ⟨S10240, .i32⟩
  | 11 => ⟨S10240, .i32⟩
  | 12 => ⟨S_, .i32⟩
  | 13 => ⟨S10240, .i32⟩
  | 14 => ⟨S10240, .i32⟩
  | 15 => ⟨S8192x10240, .i32⟩
  | 16 => ⟨S1x10240, .i32⟩
  | 17 => ⟨S8192x10240, .i32⟩
  | 18 => ⟨S8192x10240, .i1⟩
  | 19 => ⟨S8192x10240, .bf16⟩
  | 20 => ⟨S_, .i32⟩
  | 21 => ⟨S_, .i32⟩
  | 22 => ⟨S_, .i32⟩
  | 23 => ⟨S10240, .i32⟩
  | 24 => ⟨S10240, .i32⟩
  | 25 => ⟨S_, .i32⟩
  | 26 => ⟨S10240, .i32⟩
  | 27 => ⟨S10240, .i32⟩
  | 28 => ⟨S8192x10240, .i32⟩
  | 29 => ⟨S1x10240, .i32⟩
  | 30 => ⟨S8192x10240, .i32⟩
  | 31 => ⟨S8192x10240, .i1⟩
  | 32 => ⟨S8192x10240, .bf16⟩
  | 33 => ⟨S10240x1, .f32⟩
  | 34 => ⟨S10240, .f32⟩
  | 35 => ⟨S1x10240, .f32⟩
  | 36 => ⟨S10240x1, .f32⟩
  | 37 => ⟨S10240, .f32⟩
  | 38 => ⟨S1x10240, .f32⟩
  | 39 => ⟨S10240x1, .f32⟩
  | 40 => ⟨S10240, .f32⟩
  | 41 => ⟨S1x10240, .f32⟩
  | 42 => ⟨S10240x1, .f32⟩
  | 43 => ⟨S10240, .f32⟩
  | 44 => ⟨S1x10240, .f32⟩
  | 45 => ⟨S4096x10240, .bf16⟩
  | 46 => ⟨S4096x10240, .f32⟩
  | 47 => ⟨S4096x10x1024, .f32⟩
  | 48 => ⟨S_, .f32⟩
  | 49 => ⟨S4096x10, .f32⟩
  | 50 => ⟨S_, .f32⟩
  | 51 => ⟨S4096x10, .f32⟩
  | 52 => ⟨S4096x10, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1024x1024, .bf16⟩
  | .local _ .vmem, ⟨33, _⟩ => ⟨S1024x1024, .bf16⟩
  | .local _ .vmem, ⟨34, _⟩ => ⟨S1024x1024, .f32⟩
  | .local _ .vmem, ⟨35, _⟩ => ⟨S1024x1024, .f32⟩
  | .local _ .vmem, ⟨36, _⟩ => ⟨S1024x1024, .bf16⟩
  | .local _ .vmem, ⟨37, _⟩ => ⟨S1024x1024, .bf16⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S1024x512, .bf16⟩
  | .local _ .vmem, ⟨51, _⟩ => ⟨S1024x512, .bf16⟩
  | .local _ .vmem, ⟨52, _⟩ => ⟨S1024x512, .f32⟩
  | .local _ .vmem, ⟨53, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c : Ref sig .tc := ⟨.hbm, 57, rfl⟩
abbrev main_c_9 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_c_11 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_c_13 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_14 : Ref sig .tc := ⟨.hbm, 109, rfl⟩
abbrev main_c_15 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_c_16 : Ref sig .tc := ⟨.hbm, 135, rfl⟩
abbrev main_c_17 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_18 : Ref sig .tc := ⟨.hbm, 148, rfl⟩
abbrev main_c_19 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_20 : Ref sig .tc := ⟨.hbm, 176, rfl⟩
abbrev main_v114 : Ref sig .tc := ⟨.hbm, 177, rfl⟩
abbrev main_cst_21 : Ref sig .tc := ⟨.hbm, 178, rfl⟩
abbrev main_v115 : Ref sig .tc := ⟨.hbm, 179, rfl⟩
abbrev main_v116 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_scratch0 : Ref sig .tc := ⟨.vmem, 34, rfl⟩
abbrev cc1_scratch1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_scratch0 : Ref sig .tc := ⟨.vmem, 52, rfl⟩
abbrev cc2_scratch1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_15 : BitVec 32 := 0#32
  let v21 : BitVec 1 := Scalar.cmpi .eq arg2 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![4, 20, 8], ![false, false, false]⟩

def k2_cond2 (i : grid2.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  reducesTo_S10240x16_S10240_d1 : S10240x16.ReducesTo [1] S10240
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x16_0_1 : S10240x1.BroadcastsInDim S10240x16 (![0, 1] : Fin 2 → Fin S10240x16.rank)
  bitsLt_bf16_f32 : FTy.bits .bf16 < FTy.bits .f32
  shapeCasts_S8192_S1x8192 : S8192.ShapeCasts S1x8192
  bcast_S1x8192_S1024x8192_0_1 : S1x8192.BroadcastsInDim S1024x8192 (![0, 1] : Fin 2 → Fin S1024x8192.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  bcast_S1x8192_S8192x8192_0_1 : S1x8192.BroadcastsInDim S8192x8192 (![0, 1] : Fin 2 → Fin S8192x8192.rank)
  shapeCasts_S10240_S1x10240 : S10240.ShapeCasts S1x10240
  bcast_S1x10240_S8192x10240_0_1 : S1x10240.BroadcastsInDim S8192x10240 (![0, 1] : Fin 2 → Fin S8192x10240.rank)
  slices_S10240x4_S10240x1_0_0 : S10240x4.Slices ![0, 0] S10240x1
  shapeCasts_S10240x1_S10240 : S10240x1.ShapeCasts S10240
  slices_S10240x4_S10240x1_0_1 : S10240x4.Slices ![0, 1] S10240x1
  slices_S10240x4_S10240x1_0_2 : S10240x4.Slices ![0, 2] S10240x1
  slices_S10240x4_S10240x1_0_3 : S10240x4.Slices ![0, 3] S10240x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S4096x10240_S4096x10x1024 : S4096x10240.ShapeCasts S4096x10x1024
  reducesTo_S4096x10x1024_S4096x10_d2 : S4096x10x1024.ReducesTo [2] S4096x10
  bcast_S_S4096x10 : S_.BroadcastsInDim S4096x10 (![] : Fin 0 → Fin S4096x10.rank)
  dot_S8192x16_S16x4_S8192x4_1_0_0_1_n_n_wf : DotDims.WF S8192x16 S16x4 S8192x4 [1] [0] [0] [1] [] []
  dot_S10240x16_S16x4_S10240x4_1_0_0_1_n_n_wf : DotDims.WF S10240x16 S16x4 S10240x4 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x8192.size a
  hwx0_1 : ∀ i : grid0.Coords, EltTy.bits .bf16 = 32 ∨ (Rect.block (s := S1024x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x8192.size a
  hwx0_2 : ∀ i : grid0.Coords, EltTy.bits .bf16 = 32 ∨ (Rect.block (s := S1024x8192) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x8192.size a
  hwx0_7 : ∀ i : grid0.Coords, EltTy.bits .bf16 = 32 ∨ (Rect.block (s := S4096x8192) S1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x8192.size a
  hwx1_0 : ∀ i : grid1.Coords, EltTy.bits .bf16 = 32 ∨ (Rect.block (s := S4096x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .bf16 = 32 ∨ (Rect.block (s := S8192x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .bf16 = 32 ∨ (Rect.block (s := S8192x8192) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .f32 = 32 ∨ (Rect.block (s := S1x8192) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .f32 = 32 ∨ (Rect.block (s := S1x8192) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x8192.size a
  hwx1_6 : ∀ i : grid1.Coords, EltTy.bits .f32 = 32 ∨ (Rect.block (s := S1x8192) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S4096x8192.size a
  hwx1_7 : ∀ i : grid1.Coords, EltTy.bits .bf16 = 32 ∨ (Rect.block (s := S4096x8192) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x8192.size a
  hwx2_0 : ∀ i : grid2.Coords, EltTy.bits .bf16 = 32 ∨ (Rect.block (s := S4096x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x10240.size a
  hwx2_1 : ∀ i : grid2.Coords, EltTy.bits .bf16 = 32 ∨ (Rect.block (s := S8192x10240) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x10240.size a
  hwx2_2 : ∀ i : grid2.Coords, EltTy.bits .bf16 = 32 ∨ (Rect.block (s := S8192x10240) S1024x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x10240.size a
  hwx2_3 : ∀ i : grid2.Coords, EltTy.bits .f32 = 32 ∨ (Rect.block (s := S1x10240) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x10240.size a
  hwx2_4 : ∀ i : grid2.Coords, EltTy.bits .f32 = 32 ∨ (Rect.block (s := S1x10240) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x10240.size a
  hwx2_5 : ∀ i : grid2.Coords, EltTy.bits .f32 = 32 ∨ (Rect.block (s := S1x10240) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x10240.size a
  hwx2_6 : ∀ i : grid2.Coords, EltTy.bits .f32 = 32 ∨ (Rect.block (s := S1x10240) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S4096x10240.size a
  hwx2_7 : ∀ i : grid2.Coords, EltTy.bits .bf16 = 32 ∨ (Rect.block (s := S4096x10240) S1024x512.size (cc2_transform_7 i) (hinb2_7 i)).WholeWords (EltTy.packing .bf16)

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def dot_S10240x16_S16x4_S10240x4_1_0_0_1_n_n : DotDims S10240x16 S16x4 S10240x4 where
  lhsContracting := [1]
  rhsContracting := [0]
  lhsNonContracting := [0]
  rhsNonContracting := [1]
  lhsBatch := []
  rhsBatch := []
  wf := dot_S10240x16_S16x4_S10240x4_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v36) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v61) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v61) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v76) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v82) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v85) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v86) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v86) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v98) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v101) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v104) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v107) S1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v110) S1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v111) S1024x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S8192x16 : Shape := ⟨2, ![8192, 16]⟩
abbrev S10240x16 : Shape := ⟨2, ![10240, 16]⟩
abbrev S8192 : Shape := ⟨1, ![8192]⟩
abbrev S10240 : Shape := ⟨1, ![10240]⟩
abbrev S16x4 : Shape := ⟨2, ![16, 4]⟩
abbrev S_ : Shape := ⟨0, ![]⟩
abbrev S8192x1 : Shape := ⟨2, ![8192, 1]⟩
abbrev S8192x4 : Shape := ⟨2, ![8192, 4]⟩
abbrev S4096x8192 : Shape := ⟨2, ![4096, 8192]⟩
abbrev S1x8192 : Shape := ⟨2, ![1, 8192]⟩
abbrev S10240x1 : Shape := ⟨2, ![10240, 1]⟩
abbrev S10240x4 : Shape := ⟨2, ![10240, 4]⟩
abbrev S4096x10240 : Shape := ⟨2, ![4096, 10240]⟩
abbrev S1x10240 : Shape := ⟨2, ![1, 10240]⟩
abbrev S4096x10x1024 : Shape := ⟨3, ![4096, 10, 1024]⟩
abbrev S4096x10 : Shape := ⟨2, ![4096, 10]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S8192x16, .f32⟩
  | 2 => ⟨S8192x16, .f32⟩
  | 3 => ⟨S10240x16, .f32⟩
  | 4 => ⟨S8192, .i32⟩
  | 5 => ⟨S8192, .i32⟩
  | 6 => ⟨S8192, .i32⟩
  | 7 => ⟨S8192, .i32⟩
  | 8 => ⟨S10240, .i32⟩
  | 9 => ⟨S10240, .i32⟩
  | 10 => ⟨S16x4, .f32⟩
  | 11 => ⟨S_, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x16, .f32⟩
  | 18 => ⟨S8192x16, .f32⟩
  | 19 => ⟨S8192x16, .f32⟩
  | 20 => ⟨S_, .f32⟩
  | 21 => ⟨S8192, .f32⟩
  | 22 => ⟨S8192x1, .f32⟩
  | 23 => ⟨S8192x16, .f32⟩
  | 24 => ⟨S8192x16, .f32⟩
  | 25 => ⟨S8192x4, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S4096x8192, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S4096x8192, .f32⟩
  | 44 => ⟨S8192x1, .f32⟩
  | 45 => ⟨S8192, .f32⟩
  | 46 => ⟨S8192x1, .f32⟩
  | 47 => ⟨S8192, .f32⟩
  | 48 => ⟨S1x8192, .f32⟩
  | 49 => ⟨S4096x8192, .f32⟩
  | 50 => ⟨S4096x8192, .f32⟩
  | 51 => ⟨S1x8192, .f32⟩
  | 52 => ⟨S4096x8192, .f32⟩
  | 53 => ⟨S4096x8192, .f32⟩
  | 54 => ⟨S8192x1, .f32⟩
  | 55 => ⟨S8192, .f32⟩
  | 56 => ⟨S1x8192, .f32⟩
  | 57 => ⟨S4096x8192, .f32⟩
  | 58 => ⟨S4096x8192, .f32⟩
  | 59 => ⟨S4096x8192, .f32⟩
  | 60 => ⟨S8192x1, .f32⟩
  | 61 => ⟨S8192, .f32⟩
  | 62 => ⟨S4096x8192, .f32⟩
  | 63 => ⟨S1x8192, .f32⟩
  | 64 => ⟨S4096x8192, .f32⟩
  | 65 => ⟨S4096x8192, .f32⟩
  | 66 => ⟨S4096x8192, .f32⟩
  | 67 => ⟨S_, .f32⟩
  | 68 => ⟨S8192, .f32⟩
  | 69 => ⟨S_, .f32⟩
  | 70 => ⟨S8192, .f32⟩
  | 71 => ⟨S8192, .f32⟩
  | 72 => ⟨S8192x1, .f32⟩
  | 73 => ⟨S8192x16, .f32⟩
  | 74 => ⟨S8192x16, .f32⟩
  | 75 => ⟨S8192x16, .f32⟩
  | 76 => ⟨S_, .f32⟩
  | 77 => ⟨S8192, .f32⟩
  | 78 => ⟨S8192x1, .f32⟩
  | 79 => ⟨S8192x16, .f32⟩
  | 80 => ⟨S8192x16, .f32⟩
  | 81 => ⟨S8192x4, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S4096x8192, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S4096x8192, .f32⟩
  | 100 => ⟨S8192x1, .f32⟩
  | 101 => ⟨S8192, .f32⟩
  | 102 => ⟨S8192x1, .f32⟩
  | 103 => ⟨S8192, .f32⟩
  | 104 => ⟨S1x8192, .f32⟩
  | 105 => ⟨S4096x8192, .f32⟩
  | 106 => ⟨S4096x8192, .f32⟩
  | 107 => ⟨S1x8192, .f32⟩
  | 108 => ⟨S4096x8192, .f32⟩
  | 109 => ⟨S4096x8192, .f32⟩
  | 110 => ⟨S8192x1, .f32⟩
  | 111 => ⟨S8192, .f32⟩
  | 112 => ⟨S1x8192, .f32⟩
  | 113 => ⟨S4096x8192, .f32⟩
  | 114 => ⟨S4096x8192, .f32⟩
  | 115 => ⟨S4096x8192, .f32⟩
  | 116 => ⟨S8192x1, .f32⟩
  | 117 => ⟨S8192, .f32⟩
  | 118 => ⟨S4096x8192, .f32⟩
  | 119 => ⟨S1x8192, .f32⟩
  | 120 => ⟨S4096x8192, .f32⟩
  | 121 => ⟨S4096x8192, .f32⟩
  | 122 => ⟨S4096x8192, .f32⟩
  | 123 => ⟨S_, .f32⟩
  | 124 => ⟨S10240, .f32⟩
  | 125 => ⟨S_, .f32⟩
  | 126 => ⟨S10240, .f32⟩
  | 127 => ⟨S10240, .f32⟩
  | _ => ⟨S4096x1024, .f32⟩

abbrev hbmTy0_1 (i : Nat) : BufTy := match i % 128 with
  | 0 => ⟨S10240x1, .f32⟩
  | 1 => ⟨S10240x16, .f32⟩
  | 2 => ⟨S10240x16, .f32⟩
  | 3 => ⟨S10240x16, .f32⟩
  | 4 => ⟨S_, .f32⟩
  | 5 => ⟨S10240, .f32⟩
  | 6 => ⟨S10240x1, .f32⟩
  | 7 => ⟨S10240x16, .f32⟩
  | 8 => ⟨S10240x16, .f32⟩
  | 9 => ⟨S10240x4, .f32⟩
  | 10 => ⟨S_, .i32⟩
  | 11 => ⟨S10240, .i32⟩
  | 12 => ⟨S10240, .i1⟩
  | 13 => ⟨S_, .i32⟩
  | 14 => ⟨S10240, .i32⟩
  | 15 => ⟨S10240, .i32⟩
  | 16 => ⟨S10240, .i32⟩
  | 17 => ⟨S10240x1, .i32⟩
  | 18 => ⟨S4096x10240, .f32⟩
  | 19 => ⟨S_, .i32⟩
  | 20 => ⟨S10240, .i32⟩
  | 21 => ⟨S10240, .i1⟩
  | 22 => ⟨S_, .i32⟩
  | 23 => ⟨S10240, .i32⟩
  | 24 => ⟨S10240, .i32⟩
  | 25 => ⟨S10240, .i32⟩
  | 26 => ⟨S10240x1, .i32⟩
  | 27 => ⟨S4096x10240, .f32⟩
  | 28 => ⟨S10240x1, .f32⟩
  | 29 => ⟨S10240, .f32⟩
  | 30 => ⟨S10240x1, .f32⟩
  | 31 => ⟨S10240, .f32⟩
  | 32 => ⟨S1x10240, .f32⟩
  | 33 => ⟨S4096x10240, .f32⟩
  | 34 => ⟨S4096x10240, .f32⟩
  | 35 => ⟨S1x10240, .f32⟩
  | 36 => ⟨S4096x10240, .f32⟩
  | 37 => ⟨S4096x10240, .f32⟩
  | 38 => ⟨S10240x1, .f32⟩
  | 39 => ⟨S10240, .f32⟩
  | 40 => ⟨S1x10240, .f32⟩
  | 41 => ⟨S4096x10240, .f32⟩
  | 42 => ⟨S4096x10240, .f32⟩
  | 43 => ⟨S4096x10240, .f32⟩
  | 44 => ⟨S10240x1, .f32⟩
  | 45 => ⟨S10240, .f32⟩
  | 46 => ⟨S4096x10240, .f32⟩
  | 47 => ⟨S1x10240, .f32⟩
  | 48 => ⟨S4096x10240, .f32⟩
  | 49 => ⟨S4096x10240, .f32⟩
  | 50 => ⟨S4096x10240, .f32⟩
  | 51 => ⟨S4096x10x1024, .f32⟩
  | 52 => ⟨S_, .f32⟩
  | 53 => ⟨S4096x10, .f32⟩
  | 54 => ⟨S_, .f32⟩
  | 55 => ⟨S4096x10, .f32⟩
  | 56 => ⟨S4096x10, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_13 : Ref sig .tc := ⟨.hbm, 123, rfl⟩
abbrev main_v98 : Ref sig .tc := ⟨.hbm, 124, rfl⟩
abbrev main_cst_14 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_16 : Ref sig .tc := ⟨.hbm, 138, rfl⟩
abbrev main_v110 : Ref sig .tc := ⟨.hbm, 139, rfl⟩
abbrev main_v111 : Ref sig .tc := ⟨.hbm, 140, rfl⟩
abbrev main_c_17 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_18 : Ref sig .tc := ⟨.hbm, 147, rfl⟩
abbrev main_v117 : Ref sig .tc := ⟨.hbm, 148, rfl⟩
abbrev main_v118 : Ref sig .tc := ⟨.hbm, 149, rfl⟩
abbrev main_c_19 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_20 : Ref sig .tc := ⟨.hbm, 180, rfl⟩
abbrev main_v148 : Ref sig .tc := ⟨.hbm, 181, rfl⟩
abbrev main_cst_21 : Ref sig .tc := ⟨.hbm, 182, rfl⟩
abbrev main_v149 : Ref sig .tc := ⟨.hbm, 183, rfl⟩
abbrev main_v150 : Ref sig .tc := ⟨.hbm, 184, rfl⟩

abbrev nD : Nat := 1
abbrev τ : Topo := Topo.v7x

variable {F : FTy → Type} [FloatOps F]

class Facts₀ : Prop where
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S8192x4_S8192x1_0_2 : S8192x4.Slices ![0, 2] S8192x1
  slices_S8192x4_S8192x1_0_3 : S8192x4.Slices ![0, 3] S8192x1
  reducesTo_S10240x16_S10240_d1 : S10240x16.ReducesTo [1] S10240
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x16_0_1 : S10240x1.BroadcastsInDim S10240x16 (![0, 1] : Fin 2 → Fin S10240x16.rank)
  slices_S10240x4_S10240x1_0_0 : S10240x4.Slices ![0, 0] S10240x1
  shapeCasts_S10240x1_S10240 : S10240x1.ShapeCasts S10240
  slices_S10240x4_S10240x1_0_1 : S10240x4.Slices ![0, 1] S10240x1
  bcast_S10240_S1x10240_1 : S10240.BroadcastsInDim S1x10240 (![1] : Fin 1 → Fin S1x10240.rank)
  bcast_S1x10240_S4096x10240_0_1 : S1x10240.BroadcastsInDim S4096x10240 (![0, 1] : Fin 2 → Fin S4096x10240.rank)
  slices_S10240x4_S10240x1_0_2 : S10240x4.Slices ![0, 2] S10240x1
  slices_S10240x4_S10240x1_0_3 : S10240x4.Slices ![0, 3] S10240x1
  shapeCasts_S4096x10240_S4096x10x1024 : S4096x10240.ShapeCasts S4096x10x1024
  reducesTo_S4096x10x1024_S4096x10_d2 : S4096x10x1024.ReducesTo [2] S4096x10
  bcast_S_S4096x10 : S_.BroadcastsInDim S4096x10 (![] : Fin 0 → Fin S4096x10.rank)
  dot_S8192x16_S16x4_S8192x4_1_0_0_1_n_n_wf : DotDims.WF S8192x16 S16x4 S8192x4 [1] [0] [0] [1] [] []
  gather_S4096x1024_S8192x1_S4096x8192_0_1_n_n_1_1_40961_wf : GatherDims.WF S4096x1024 S8192x1 S4096x8192 [0] [1] [] [1] [] 1 ![4096, 1]
  gather_S4096x8192_S8192x1_S4096x8192_0_1_n_n_1_1_40961_wf : GatherDims.WF S4096x8192 S8192x1 S4096x8192 [0] [1] [] [1] [] 1 ![4096, 1]
  dot_S10240x16_S16x4_S10240x4_1_0_0_1_n_n_wf : DotDims.WF S10240x16 S16x4 S10240x4 [1] [0] [0] [1] [] []
  gather_S4096x8192_S10240x1_S4096x10240_0_1_n_n_1_1_40961_wf : GatherDims.WF S4096x8192 S10240x1 S4096x10240 [0] [1] [] [1] [] 1 ![4096, 1]

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def gather_S4096x1024_S8192x1_S4096x8192_0_1_n_n_1_1_40961 : GatherDims S4096x1024 S8192x1 S4096x8192 where
  offsetDims := [0]
  collapsedSliceDims := [1]
  operandBatchingDims := []
  startIndicesBatchingDims := []
  startIndexMap := [1]
  indexVectorDim := 1
  sliceSizes := ![4096, 1]
  wf := gather_S4096x1024_S8192x1_S4096x8192_0_1_n_n_1_1_40961_wf
def gather_S4096x8192_S8192x1_S4096x8192_0_1_n_n_1_1_40961 : GatherDims S4096x8192 S8192x1 S4096x8192 where
  offsetDims := [0]
  collapsedSliceDims := [1]
  operandBatchingDims := []
  startIndicesBatchingDims := []
  startIndexMap := [1]
  indexVectorDim := 1
  sliceSizes := ![4096, 1]
  wf := gather_S4096x8192_S8192x1_S4096x8192_0_1_n_n_1_1_40961_wf
def dot_S10240x16_S16x4_S10240x4_1_0_0_1_n_n : DotDims S10240x16 S16x4 S10240x4 where
  lhsContracting := [1]
  rhsContracting := [0]
  lhsNonContracting := [0]
  rhsNonContracting := [1]
  lhsBatch := []
  rhsBatch := []
  wf := dot_S10240x16_S16x4_S10240x4_1_0_0_1_n_n_wf
def gather_S4096x8192_S10240x1_S4096x10240_0_1_n_n_1_1_40961 : GatherDims S4096x8192 S10240x1 S4096x10240 where
  offsetDims := [0]
  collapsedSliceDims := [1]
  operandBatchingDims := []
  startIndicesBatchingDims := []
  startIndexMap := [1]
  indexVectorDim := 1
  sliceSizes := ![4096, 1]
  wf := gather_S4096x8192_S10240x1_S4096x10240_0_1_n_n_1_1_40961_wf

class Facts : Prop extends Facts₀ where

variable [Facts]
-- ==== Proof.KB.R0Defs.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S1024x1024 .bf16 := iblk0 V c 0 t
abbrev oa0 (c : Dev nD) (t : Fin cfg0.N) : Vec F S1024x1024 .bf16 := iblk0 V c 1 t
abbrev ob0 (c : Dev nD) (t : Fin cfg0.N) : Vec F S1024x1024 .bf16 := iblk0 V c 2 t
abbrev c0b0 (c : Dev nD) (t : Fin cfg0.N) : Vec F S1x1024 .f32 := iblk0 V c 3 t
abbrev c1b0 (c : Dev nD) (t : Fin cfg0.N) : Vec F S1x1024 .f32 := iblk0 V c 4 t
abbrev c2b0 (c : Dev nD) (t : Fin cfg0.N) : Vec F S1x1024 .f32 := iblk0 V c 5 t
abbrev c3b0 (c : Dev nD) (t : Fin cfg0.N) : Vec F S1x1024 .f32 := iblk0 V c 6 t

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1

theorem hcond0_1 : ∀ t : Fin cfg0.N, cond0_1 (grid0.coords t) :=
  (by decide +kernel : ∀ t : Fin grid0.N, cond0_1 (grid0.coords t))

-- the contraction has one step: each accumulator is the point's product on top of zero
def accA0 (x : Vec F S1024x1024 .bf16) (oa : Vec F S1024x1024 .bf16) : Vec F S1024x1024 .f32 := k0_pay4 x k0_pay1 oa
def accB0 (x : Vec F S1024x1024 .bf16) (ob : Vec F S1024x1024 .bf16) : Vec F S1024x1024 .f32 := k0_pay5 x k0_pay2 ob

def out0 (c : Dev nD) (t : Fin cfg0.N) : Vec F S1024x1024 .bf16 :=
  k0_pay6 (accA0 (xb0 V c t) (oa0 V c t)) (accB0 (xb0 V c t) (ob0 V c t)) (c0b0 V c t) (c1b0 V c t) (c2b0 V c t) (c3b0 V c t)

abbrev scM0_0 : Memref sig .tc .vmem S1024x1024 .f32 := Memref.whole cc0_scratch0
abbrev scM0_1 : Memref sig .tc .vmem S1024x1024 .f32 := Memref.whole cc0_scratch1

abbrev rest0 (c : Dev nD) : sProp 𝕄 :=
  iprop(Pipeline.scopedRestBut (Ix := Unit) (Name := ℕ) (U := UR sig nD τ) (Lvl := ℕ) (Val := Elt F) spec0 c [cc0_scratch0, cc0_scratch1] ∗ ∃ r, prngReg c r)

def Phi0 (c : Dev nD) : sProp 𝕄 :=
  iprop(iprop((∃ d, owns (c : Thread nD τ) scM0_0 fullShare d) ∗ (∃ d, owns (c : Thread nD τ) scM0_1 fullShare d)) ∗ rest0 (F := F) c)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c t
  Φ _ := Phi0 (F := F) c
  q _ := fullShare
  owed _ := 0

theorem A_eq0 (c : Dev nD) (w : Fin cfg0.W) : (dat0 V c).A w = V c (Pipeline.arrRef spec0 w) := by
  dsimp only [dat0]
theorem after0_7 (c : Dev nD) (t : Fin cfg0.N) : (dat0 V c).after 7 t = out0 V c t := by dsimp only [dat0]

end Cert.Kernel.Hand

end
-- ==== Proof.KB.R0Run.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import proofs.«428350_j82789789597763_3_alg».proof.Proof.KB.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_off2 : (![0, 0] : Fin 2 → ℕ) = fun _ => 0 := by
  funext a; fin_cases a <;> rfl

section WholeBuffer

variable {Val : EltTy → Type} [∀ e, Nonempty (Val e)] {S : Shape} {e : EltTy}
variable {sg : RefSig} {κ : Kind} {sp : Space}

-- a buffer whose last store covered the whole shape reads that store's payload
theorem read_writes_whole_last (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem readCov_whole_last (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h, View.ld_unit_zero h]

end WholeBuffer

-- both branches are taken at every point: the accumulators restart from zero and the output block is stored
set_option maxHeartbeats 1000000 in
theorem run0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)
    (hc0 : cond0_0 i) (hc1 : cond0_1 i)
    (x : Vec F S1024x1024 .bf16) (oa ob : Vec F S1024x1024 .bf16) (k0 k1 k2 k3 : Vec F S1x1024 .f32) (E : Set ℕ) (K : PUnit → sProp 𝕄) :
    iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
            ∗ owns (c : Thread nD τ) arg10 fullShare (k0_pay6 (accA0 x oa) (accB0 x ob) k0 k1 k2 k3) ∗ owns (c : Thread nD τ) arg11 fullShare (accA0 x oa) ∗ owns (c : Thread nD τ) arg12 fullShare (accB0 x ob)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel owns accA0 accB0
  iintro ⟨⟨%fx, %hfx, Hx⟩, ⟨%fa, %hfa, Ha⟩, ⟨%fb, %hfb, Hb⟩, ⟨%fp, %hfp, Hp⟩, ⟨%fq, %hfq, Hq⟩,
    ⟨%fr, %hfr, Hr⟩, ⟨%fs, %hfs, Hs⟩, ⟨%yo, %fo, -, Ho⟩, ⟨%yu, %fu, -, Hu⟩, ⟨%yv, %fv, -, Hv⟩, Hk⟩
  subst hfx hfa hfb hfp hfq hfr hfs
  sl_exec (disch := first | exact hc0 | exact hc1)
  sl_step
  iapply Hk
  (isplitl [Hx]; iexists _; isplitr; swap; iexact Hx; swap
   isplitl [Ha]; iexists _; isplitr; swap; iexact Ha; swap
   isplitl [Hb]; iexists _; isplitr; swap; iexact Hb; swap
   isplitl [Hp]; iexists _; isplitr; swap; iexact Hp; swap
   isplitl [Hq]; iexists _; isplitr; swap; iexact Hq; swap
   isplitl [Hr]; iexists _; isplitr; swap; iexact Hr; swap
   isplitl [Hs]; iexists _; isplitr; swap; iexact Hs; swap
   isplitl [Ho]; iexists _; isplitr; swap; iexact Ho; swap
   isplitl [Hu]; iexists _; isplitr; swap; iexact Hu; swap
   iexists _; isplitr; swap; iexact Hv) <;>
  (ipureintro; first | rfl | (sl_unfold_words; rw [read_writes_whole_last _ _ zero_off2]; simp only [View.readAt_eq_ld, readCov_whole_last (S := S1024x1024) _ zero_off2, View.ld_unit_zero (S := S1024x1024) zero_off2, View.ld_unit_zero (S := S1x1024) zero_off2]))

end Cert.Kernel.Hand

end
-- ==== Proof.KB.R0Body.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import proofs.«428350_j82789789597763_3_alg».proof.Proof.KB.R0Defs
import proofs.«428350_j82789789597763_3_alg».proof.Proof.KB.R0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- each input block the body is handed is the block of the entry array at that point
theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t)
    ∧ (∀ d, (dat0 V c).before 6 t d = iblk0 V c 6 t) := by
  refine ⟨?_, ?_, ?_, ?_, ?_, ?_, ?_⟩ <;>
  exact fun d => ((dat0 V c).before_in_eq_fetched _ rfl (fun _ => rfl) (fun _ _ _ => rfl) (fun _ => rfl) t d).trans rfl

-- the contraction has one step, so the output block is stored at every point
theorem leaves0_out (c : Dev nD) (t : Fin cfg0.N) :
    (dat0 V c).leavesExact 7 t = owns (c : Thread nD τ) (st0_7 t) fullShare (out0 V c t) := by
  unfold Dat.leavesExact
  rw [show cfg0.idle 7 (grid0.coords t) = false from by show (!(_ == 1#1)) = false; rw [Bool.not_eq_false', beq_iff_eq]; exact hcond0_1 t, after0_7]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop(Phi0 (F := F) c ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare (iblk0 V c 6 t)
    ∗ (dat0 V c).leavesExact 7 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c t]
  rw [show (dat0 V c).Φ t.castSucc = Phi0 (F := F) c from rfl, leaves0_out V c t]
  unfold Phi0 out0
  iintro ⟨⟨⟨HA, HB⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0 c (grid0.coords t) _ _ _ _ _ _ _ _ _ _ _ _ _ _ _ _ _ _ _ _ (hcond0_0 t) (hcond0_1 t)
    (xb0 V c t) (oa0 V c t) (ob0 V c t) (c0b0 V c t) (c1b0 V c t) (c2b0 V c t) (c3b0 V c t) Set.univ _)
  iframe H0 H1 H2 H3 H4 H5 H6 HA HB
  isplitl [H7]; · iexists _; iexact H7
  iintro ⟨H0, H1, H2, H3, H4, H5, H6, H7, HA, HB⟩
  iframe Hr Ho H0 H1 H2 H3 H4 H5 H6 H7
  isplitl [HA] <;> iexists _ <;> iassumption

theorem body_obligation0 (c : Dev nD) : BodyObligation (dat0 (F := F) V c) (defs₀ (F := F)) Variants.none () Set.univ := fun t => by
  rw [bigSep_W0, bigSep_W0]
  exact sound_body0 V c t

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

theorem hin0 (c : Dev nD) : (Pipeline.ΦA spec0 c : sProp 𝕄) ⊢ (dat0 V c).Φ 0 := by
  rw [PhiA0_eq]; show _ ⊢ Phi0 (F := F) c; unfold Phi0 rest0
  iintro ⟨⟨HS, Hrest⟩, Hg⟩
  iframe

theorem hout0 (c : Dev nD) : (dat0 V c).Φ (Fin.last cfg0.N) ⊢ (Pipeline.ΦA spec0 c : sProp 𝕄) := by
  rw [PhiA0_eq]; show Phi0 (F := F) c ⊢ _; unfold Phi0 rest0
  iintro ⟨HS, Hrest, Hg⟩
  iframe

end Cert.Kernel.Hand

end
-- ==== Proof.KB.R1Defs.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S1024x1024 .bf16 := iblk1 V c 0 t
abbrev oa1 (c : Dev nD) (t : Fin cfg1.N) : Vec F S1024x1024 .bf16 := iblk1 V c 1 t
abbrev ob1 (c : Dev nD) (t : Fin cfg1.N) : Vec F S1024x1024 .bf16 := iblk1 V c 2 t
abbrev c0b1 (c : Dev nD) (t : Fin cfg1.N) : Vec F S1x1024 .f32 := iblk1 V c 3 t
abbrev c1b1 (c : Dev nD) (t : Fin cfg1.N) : Vec F S1x1024 .f32 := iblk1 V c 4 t
abbrev c2b1 (c : Dev nD) (t : Fin cfg1.N) : Vec F S1x1024 .f32 := iblk1 V c 5 t
abbrev c3b1 (c : Dev nD) (t : Fin cfg1.N) : Vec F S1x1024 .f32 := iblk1 V c 6 t

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

-- the two accumulators after point n: a sum of products over the contraction steps up to n, restarted where n ≡ 0 (mod 8)
def acc1 (c : Dev nD) : (n : ℕ) → n < cfg1.N → Vec F S1024x1024 .f32 × Vec F S1024x1024 .f32
  | 0, hn => (k1_pay4 (xb1 V c ⟨0, hn⟩) k1_pay1 (oa1 V c ⟨0, hn⟩), k1_pay5 (xb1 V c ⟨0, hn⟩) k1_pay2 (ob1 V c ⟨0, hn⟩))
  | n + 1, hn =>
    if (n + 1) % 8 = 0 then
      (k1_pay4 (xb1 V c ⟨n + 1, hn⟩) k1_pay1 (oa1 V c ⟨n + 1, hn⟩), k1_pay5 (xb1 V c ⟨n + 1, hn⟩) k1_pay2 (ob1 V c ⟨n + 1, hn⟩))
    else
      (k1_pay4 (xb1 V c ⟨n + 1, hn⟩) (acc1 c n (Nat.lt_of_succ_lt hn)).1 (oa1 V c ⟨n + 1, hn⟩),
       k1_pay5 (xb1 V c ⟨n + 1, hn⟩) (acc1 c n (Nat.lt_of_succ_lt hn)).2 (ob1 V c ⟨n + 1, hn⟩))

theorem acc1_first (c : Dev nD) (t : Fin cfg1.N) (h : t.val % 8 = 0) :
    acc1 V c t.val t.isLt = (k1_pay4 (xb1 V c t) k1_pay1 (oa1 V c t), k1_pay5 (xb1 V c t) k1_pay2 (ob1 V c t)) := by
  obtain ⟨n, hn⟩ := t
  cases n with
  | zero => rfl
  | succ n => exact if_pos h

theorem acc1_next (c : Dev nD) (t : Fin cfg1.N) (h : ¬t.val % 8 = 0) :
    acc1 V c t.val t.isLt = (k1_pay4 (xb1 V c t) (acc1 V c (t.val - 1) (Nat.lt_of_le_of_lt (Nat.sub_le _ _) t.isLt)).1 (oa1 V c t),
      k1_pay5 (xb1 V c t) (acc1 V c (t.val - 1) (Nat.lt_of_le_of_lt (Nat.sub_le _ _) t.isLt)).2 (ob1 V c t)) := by
  obtain ⟨n, hn⟩ := t
  cases n with
  | zero => exact absurd (Nat.zero_mod _) h
  | succ n => exact if_neg h

def out1 (c : Dev nD) (t : Fin cfg1.N) : Vec F S1024x1024 .bf16 :=
  k1_pay6 (acc1 V c t.val t.isLt).1 (acc1 V c t.val t.isLt).2 (c0b1 V c t) (c1b1 V c t) (c2b1 V c t) (c3b1 V c t)

abbrev scM1_0 : Memref sig .tc .vmem S1024x1024 .f32 := Memref.whole cc1_scratch0
abbrev scM1_1 : Memref sig .tc .vmem S1024x1024 .f32 := Memref.whole cc1_scratch1

abbrev rest1 (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

-- the loop invariant before position n
def PhiS1 (c : Dev nD) : (n : ℕ) → n ≤ cfg1.N → sProp 𝕄
  | 0, _ => iprop(iprop((∃ d, owns (c : Thread nD τ) scM1_0 fullShare d) ∗ (∃ d, owns (c : Thread nD τ) scM1_1 fullShare d)) ∗ rest1 (F := F) c)
  | n + 1, hn => iprop(iprop(owns (c : Thread nD τ) scM1_0 fullShare (acc1 V c n hn).1 ∗ owns (c : Thread nD τ) scM1_1 fullShare (acc1 V c n hn).2) ∗ rest1 (F := F) c)

theorem PhiS1_zero (c : Dev nD) (n : ℕ) (h : n ≤ cfg1.N) (hz : n = 0) :
    PhiS1 V c n h = iprop(iprop((∃ d, owns (c : Thread nD τ) scM1_0 fullShare d) ∗ (∃ d, owns (c : Thread nD τ) scM1_1 fullShare d)) ∗ rest1 (F := F) c) := by
  subst hz; rfl
theorem PhiS1_succ (c : Dev nD) (n : ℕ) (hn : n < cfg1.N) :
    PhiS1 V c (n + 1) hn = iprop(iprop(owns (c : Thread nD τ) scM1_0 fullShare (acc1 V c n hn).1 ∗ owns (c : Thread nD τ) scM1_1 fullShare (acc1 V c n hn).2) ∗ rest1 (F := F) c) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_7 (c : Dev nD) (t : Fin cfg1.N) : (dat1 V c).after 7 t = out1 V c t := by dsimp only [dat1]

end Cert.Kernel.Hand

end
-- ==== Proof.KB.R1Run.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import proofs.«428350_j82789789597763_3_alg».proof.Proof.KB.R1Defs
import proofs.«428350_j82789789597763_3_alg».proof.Proof.KB.R0Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every grid point at once: the accumulators restart at the contraction's first step, the output block is stored at its last
set_option maxHeartbeats 1000000 in
theorem run1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)
    (x : Vec F S1024x1024 .bf16) (oa ob : Vec F S1024x1024 .bf16) (k0 k1 k2 k3 : Vec F S1x1024 .f32) (o : Vec F S1024x1024 .bf16)
    (sa sb : Vec F S1024x1024 .f32) (E : Set ℕ) (K : PUnit → sProp 𝕄) :
    iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
        ∗ owns (c : Thread nD τ) arg10 fullShare o ∗ owns (c : Thread nD τ) arg11 fullShare sa ∗ owns (c : Thread nD τ) arg12 fullShare sb
        ∗ (iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
            ∗ owns (c : Thread nD τ) arg10 fullShare (if cond1_1 i then k1_pay6 (k1_pay4 x (if cond1_0 i then k1_pay1 else sa) oa) (k1_pay5 x (if cond1_0 i then k1_pay2 else sb) ob) k0 k1 k2 k3 else o) ∗ owns (c : Thread nD τ) arg11 fullShare (k1_pay4 x (if cond1_0 i then k1_pay1 else sa) oa) ∗ owns (c : Thread nD τ) arg12 fullShare (k1_pay5 x (if cond1_0 i then k1_pay2 else sb) ob)) -∗ K ⟨⟩))
      ⊢ wp frame (wpE (defs₀ (F := F)) Variants.none c none) E (cc1_kernel i arg3 harg3 arg4 harg4 arg5 harg5 arg6 harg6 arg7 harg7 arg8 harg8 arg9 harg9 arg10 harg10 arg11 harg11 arg12 harg12) K := by
  simp only [cc1_kernel_eq_skeleton]; unfold cc1_kernel_skel owns
  iintro ⟨⟨%fx, %hfx, Hx⟩, ⟨%fa, %hfa, Ha⟩, ⟨%fb, %hfb, Hb⟩, ⟨%fp, %hfp, Hp⟩, ⟨%fq, %hfq, Hq⟩,
    ⟨%fr, %hfr, Hr⟩, ⟨%fs, %hfs, Hs⟩, ⟨%fo, %hfo, Ho⟩, ⟨%fu, %hfu, Hu⟩, ⟨%fv, %hfv, Hv⟩, Hk⟩
  subst hfx hfa hfb hfp hfq hfr hfs hfo hfu hfv
  by_cases hc0 : cond1_0 i <;> by_cases hc1 : cond1_1 i <;>
  · first | have h0 := eq_false hc0 | have h0 := eq_true hc0
    first | have h1 := eq_false hc1 | have h1 := eq_true hc1
    simp only [h0, h1, if_true, if_false]
    sl_exec (disch := first | exact hc0 | exact hc1)
    sl_step
    iapply Hk
    (isplitl [Hx]; iexists _; isplitr; swap; iexact Hx; swap
     isplitl [Ha]; iexists _; isplitr; swap; iexact Ha; swap
     isplitl [Hb]; iexists _; isplitr; swap; iexact Hb; swap
     isplitl [Hp]; iexists _; isplitr; swap; iexact Hp; swap
     isplitl [Hq]; iexists _; isplitr; swap; iexact Hq; swap
     isplitl [Hr]; iexists _; isplitr; swap; iexact Hr; swap
     isplitl [Hs]; iexists _; isplitr; swap; iexact Hs; swap
     isplitl [Ho]; iexists _; isplitr; swap; iexact Ho; swap
     isplitl [Hu]; iexists _; isplitr; swap; iexact Hu; swap
     iexists _; isplitr; swap; iexact Hv) <;>
    (ipureintro; first | rfl | (sl_unfold_words; rw [read_writes_whole_last _ _ zero_off2]; simp only [View.readAt_eq_ld, readCov_whole_last (S := S1024x1024) _ zero_off2, View.ld_unit_zero (S := S1024x1024) zero_off2, View.ld_unit_zero (S := S1024x1024) zero_off2, View.ld_unit_zero (S := S1x1024) zero_off2]))

end Cert.Kernel.Hand

end
-- ==== Proof.KB.R1Body.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import proofs.«428350_j82789789597763_3_alg».proof.Proof.KB.R1Defs
import proofs.«428350_j82789789597763_3_alg».proof.Proof.KB.R1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- each input block the body is handed is the block of the entry array at that point
theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t)
    ∧ (∀ d, (dat1 V c).before 6 t d = iblk1 V c 6 t) := by
  refine ⟨?_, ?_, ?_, ?_, ?_, ?_, ?_⟩ <;>
  exact fun d => ((dat1 V c).before_in_eq_fetched _ rfl (fun _ => rfl) (fun _ _ _ => rfl) (fun _ => rfl) t d).trans rfl

-- at the contraction's last step the output block is the polynomial of the finished accumulators
theorem leaves1_out (c : Dev nD) (t : Fin cfg1.N) (h : cond1_1 (grid1.coords t)) :
    (dat1 V c).leavesExact 7 t = owns (c : Thread nD τ) (st1_7 t) fullShare (out1 V c t) := by
  unfold Dat.leavesExact
  rw [show cfg1.idle 7 (grid1.coords t) = false from by show (!(_ == 1#1)) = false; rw [Bool.not_eq_false', beq_iff_eq]; exact h, after1_7]

-- off the last step the output block is handed back as found
theorem leaves1_idle (c : Dev nD) (t : Fin cfg1.N) (h : ¬cond1_1 (grid1.coords t)) :
    (dat1 V c).leavesExact 7 t = iprop(∃ d, owns (c : Thread nD τ) (st1_7 t) fullShare ((dat1 V c).before 7 t d)) :=
  Dat.leavesExact_idle (dat1 V c) 7 t (by show (!(_ == 1#1)) = true; rw [Bool.not_eq_true', beq_eq_false_iff_ne]; exact h)
    (by rw [← Bool.not_eq_true]; exact fun hf => h ((hcond1_1 t).mpr ((flush1_7 t).mp hf)))

-- the invariant at any position: both accumulators at some contents, which past the first point are the previous point's
theorem PhiS1_open (c : Dev nD) (n : ℕ) (h : n ≤ cfg1.N) :
    PhiS1 V c n h ⊢ iprop(∃ sa sb, ⌜∀ hn : n ≠ 0, (sa, sb) = acc1 V c (n - 1) (by omega)⌝
      ∗ owns (c : Thread nD τ) scM1_0 fullShare sa ∗ owns (c : Thread nD τ) scM1_1 fullShare sb ∗ rest1 (F := F) c) := by
  cases n with
  | zero =>
    unfold PhiS1; iintro ⟨⟨⟨%sa, Ha⟩, ⟨%sb, Hb⟩⟩, Hr⟩
    iexists sa, sb; isplitr; · ipureintro; exact fun hn => absurd rfl hn
    iframe
  | succ n =>
    unfold PhiS1; iintro ⟨⟨Ha, Hb⟩, Hr⟩
    iexists (acc1 V c n h).1, (acc1 V c n h).2; isplitr; · ipureintro; exact fun _ => rfl
    iframe

-- the accumulators after point t from those before it: restarted exactly where the contraction coordinate is 0
theorem acc1_eq (c : Dev nD) (t : Fin cfg1.N) (sa sb : Vec F S1024x1024 .f32)
    (hs : ∀ hn : t.val ≠ 0, (sa, sb) = acc1 V c (t.val - 1) (by omega)) :
    acc1 V c t.val t.isLt = (k1_pay4 (xb1 V c t) (if cond1_0 (grid1.coords t) then k1_pay1 else sa) (oa1 V c t),
      k1_pay5 (xb1 V c t) (if cond1_0 (grid1.coords t) then k1_pay2 else sb) (ob1 V c t)) := by
  by_cases h0 : t.val % 8 = 0
  · rw [acc1_first V c t h0, if_pos ((hcond1_0 t).mpr h0), if_pos ((hcond1_0 t).mpr h0)]
  · have hc : ¬cond1_0 (grid1.coords t) := fun h => h0 ((hcond1_0 t).mp h)
    rw [acc1_next V c t h0, if_neg hc, if_neg hc, ← hs fun h => h0 (by rw [h])]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop(PhiS1 V c (t.val + 1) t.isLt ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ (dat1 V c).leavesExact 7 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t]
  rw [PhiS1_castSucc V c t, PhiS1_succ]
  iintro ⟨HΦ, Howe, ⟨%dx, HX⟩, ⟨%da, HA⟩, ⟨%db, HB⟩, ⟨%dp, HP⟩, ⟨%dq, HQ⟩, ⟨%dr, HR⟩, ⟨%ds, HS⟩, ⟨%dO, HO⟩⟩
  ihave H := PhiS1_open V c _ _ $$ HΦ
  icases H with ⟨%sa, %sb, %hs, HSa, HSb, Hrest⟩
  rw [acc1_eq V c t sa sb hs]
  iapply (run1 c (grid1.coords t) _ _ _ _ _ _ _ _ _ _ _ _ _ _ _ _ _ _ _ _ (xb1 V c t) (oa1 V c t) (ob1 V c t) (c0b1 V c t) (c1b1 V c t) (c2b1 V c t) (c3b1 V c t) ((dat1 V c).before 7 t dO) sa sb Set.univ _)
  iframe HX HA HB HP HQ HR HS HO HSa HSb
  iintro ⟨HX, HA, HB, HP, HQ, HR, HS, HO, HSa, HSb⟩
  iframe HSa HSb Hrest Howe HX HA HB HP HQ HR HS
  by_cases h1 : cond1_1 (grid1.coords t)
  · rw [leaves1_out V c t h1, if_pos h1]; unfold out1; rw [acc1_eq V c t sa sb hs]; iexact HO
  · rw [leaves1_idle V c t h1, if_neg h1]; iexists _; iexact HO

theorem body_obligation1 (c : Dev nD) : BodyObligation (dat1 (F := F) V c) (defs₀ (F := F)) Variants.none () Set.univ := fun t => by
  rw [bigSep_W1, bigSep_W1]
  exact sound_body1 V c t

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl, PhiA1_eq]
  unfold rest1
  iintro ⟨⟨HS, Hrest⟩, Hg⟩
  iframe

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl, PhiA1_eq]
  iintro H
  ihave H := PhiS1_open V c _ _ $$ H
  icases H with ⟨%sa, %sb, -, HSa, HSb, Hrest, Hg⟩
  iframe Hrest Hg
  isplitl [HSa] <;> iexists _ <;> iassumption

end Cert.Kernel.Hand

end
-- ==== Proof.KB.R2Defs.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S1024x1024 .bf16 := iblk2 V c 0 t
abbrev oa2 (c : Dev nD) (t : Fin cfg2.N) : Vec F S1024x512 .bf16 := iblk2 V c 1 t
abbrev ob2 (c : Dev nD) (t : Fin cfg2.N) : Vec F S1024x512 .bf16 := iblk2 V c 2 t
abbrev c0b2 (c : Dev nD) (t : Fin cfg2.N) : Vec F S1x512 .f32 := iblk2 V c 3 t
abbrev c1b2 (c : Dev nD) (t : Fin cfg2.N) : Vec F S1x512 .f32 := iblk2 V c 4 t
abbrev c2b2 (c : Dev nD) (t : Fin cfg2.N) : Vec F S1x512 .f32 := iblk2 V c 5 t
abbrev c3b2 (c : Dev nD) (t : Fin cfg2.N) : Vec F S1x512 .f32 := iblk2 V c 6 t

abbrev cond2_0 (i : grid2.Coords) : Prop := (Scalar.cmpi .ne (Scalar.extui (Scalar.cmpi .eq (BitVec.ofNat 32 (i 2).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

-- the two accumulators after point n: a sum of products over the contraction steps up to n, restarted where n ≡ 0 (mod 8)
def acc2 (c : Dev nD) : (n : ℕ) → n < cfg2.N → Vec F S1024x512 .f32 × Vec F S1024x512 .f32
  | 0, hn => (k2_pay4 (xb2 V c ⟨0, hn⟩) k2_pay1 (oa2 V c ⟨0, hn⟩), k2_pay5 (xb2 V c ⟨0, hn⟩) k2_pay2 (ob2 V c ⟨0, hn⟩))
  | n + 1, hn =>
    if (n + 1) % 8 = 0 then
      (k2_pay4 (xb2 V c ⟨n + 1, hn⟩) k2_pay1 (oa2 V c ⟨n + 1, hn⟩), k2_pay5 (xb2 V c ⟨n + 1, hn⟩) k2_pay2 (ob2 V c ⟨n + 1, hn⟩))
    else
      (k2_pay4 (xb2 V c ⟨n + 1, hn⟩) (acc2 c n (Nat.lt_of_succ_lt hn)).1 (oa2 V c ⟨n + 1, hn⟩),
       k2_pay5 (xb2 V c ⟨n + 1, hn⟩) (acc2 c n (Nat.lt_of_succ_lt hn)).2 (ob2 V c ⟨n + 1, hn⟩))

theorem acc2_first (c : Dev nD) (t : Fin cfg2.N) (h : t.val % 8 = 0) :
    acc2 V c t.val t.isLt = (k2_pay4 (xb2 V c t) k2_pay1 (oa2 V c t), k2_pay5 (xb2 V c t) k2_pay2 (ob2 V c t)) := by
  obtain ⟨n, hn⟩ := t
  cases n with
  | zero => rfl
  | succ n => exact if_pos h

theorem acc2_next (c : Dev nD) (t : Fin cfg2.N) (h : ¬t.val % 8 = 0) :
    acc2 V c t.val t.isLt = (k2_pay4 (xb2 V c t) (acc2 V c (t.val - 1) (Nat.lt_of_le_of_lt (Nat.sub_le _ _) t.isLt)).1 (oa2 V c t),
      k2_pay5 (xb2 V c t) (acc2 V c (t.val - 1) (Nat.lt_of_le_of_lt (Nat.sub_le _ _) t.isLt)).2 (ob2 V c t)) := by
  obtain ⟨n, hn⟩ := t
  cases n with
  | zero => exact absurd (Nat.zero_mod _) h
  | succ n => exact if_neg h

def out2 (c : Dev nD) (t : Fin cfg2.N) : Vec F S1024x512 .bf16 :=
  k2_pay6 (acc2 V c t.val t.isLt).1 (acc2 V c t.val t.isLt).2 (c0b2 V c t) (c1b2 V c t) (c2b2 V c t) (c3b2 V c t)

abbrev scM2_0 : Memref sig .tc .vmem S1024x512 .f32 := Memref.whole cc2_scratch0
abbrev scM2_1 : Memref sig .tc .vmem S1024x512 .f32 := Memref.whole cc2_scratch1

abbrev rest2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

-- the loop invariant before position n
def PhiS2 (c : Dev nD) : (n : ℕ) → n ≤ cfg2.N → sProp 𝕄
  | 0, _ => iprop(iprop((∃ d, owns (c : Thread nD τ) scM2_0 fullShare d) ∗ (∃ d, owns (c : Thread nD τ) scM2_1 fullShare d)) ∗ rest2 (F := F) c)
  | n + 1, hn => iprop(iprop(owns (c : Thread nD τ) scM2_0 fullShare (acc2 V c n hn).1 ∗ owns (c : Thread nD τ) scM2_1 fullShare (acc2 V c n hn).2) ∗ rest2 (F := F) c)

theorem PhiS2_zero (c : Dev nD) (n : ℕ) (h : n ≤ cfg2.N) (hz : n = 0) :
    PhiS2 V c n h = iprop(iprop((∃ d, owns (c : Thread nD τ) scM2_0 fullShare d) ∗ (∃ d, owns (c : Thread nD τ) scM2_1 fullShare d)) ∗ rest2 (F := F) c) := by
  subst hz; rfl
theorem PhiS2_succ (c : Dev nD) (n : ℕ) (hn : n < cfg2.N) :
    PhiS2 V c (n + 1) hn = iprop(iprop(owns (c : Thread nD τ) scM2_0 fullShare (acc2 V c n hn).1 ∗ owns (c : Thread nD τ) scM2_1 fullShare (acc2 V c n hn).2) ∗ rest2 (F := F) c) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_7 (c : Dev nD) (t : Fin cfg2.N) : (dat2 V c).after 7 t = out2 V c t := by dsimp only [dat2]

end Cert.Kernel.Hand

end
-- ==== Proof.KB.R2Run.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import proofs.«428350_j82789789597763_3_alg».proof.Proof.KB.R2Defs
import proofs.«428350_j82789789597763_3_alg».proof.Proof.KB.R0Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every grid point at once: the accumulators restart at the contraction's first step, the output block is stored at its last
set_option maxHeartbeats 1000000 in
theorem run2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .f32) (harg11 : arg11.IsWhole) (arg12 : Memref sig .tc .vmem S1024x512 .f32) (harg12 : arg12.IsWhole)
    (x : Vec F S1024x1024 .bf16) (oa ob : Vec F S1024x512 .bf16) (k0 k1 k2 k3 : Vec F S1x512 .f32) (o : Vec F S1024x512 .bf16)
    (sa sb : Vec F S1024x512 .f32) (E : Set ℕ) (K : PUnit → sProp 𝕄) :
    iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
        ∗ owns (c : Thread nD τ) arg10 fullShare o ∗ owns (c : Thread nD τ) arg11 fullShare sa ∗ owns (c : Thread nD τ) arg12 fullShare sb
        ∗ (iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
            ∗ owns (c : Thread nD τ) arg10 fullShare (if cond2_1 i then k2_pay6 (k2_pay4 x (if cond2_0 i then k2_pay1 else sa) oa) (k2_pay5 x (if cond2_0 i then k2_pay2 else sb) ob) k0 k1 k2 k3 else o) ∗ owns (c : Thread nD τ) arg11 fullShare (k2_pay4 x (if cond2_0 i then k2_pay1 else sa) oa) ∗ owns (c : Thread nD τ) arg12 fullShare (k2_pay5 x (if cond2_0 i then k2_pay2 else sb) ob)) -∗ K ⟨⟩))
      ⊢ wp frame (wpE (defs₀ (F := F)) Variants.none c none) E (cc2_kernel i arg3 harg3 arg4 harg4 arg5 harg5 arg6 harg6 arg7 harg7 arg8 harg8 arg9 harg9 arg10 harg10 arg11 harg11 arg12 harg12) K := by
  simp only [cc2_kernel_eq_skeleton]; unfold cc2_kernel_skel owns
  iintro ⟨⟨%fx, %hfx, Hx⟩, ⟨%fa, %hfa, Ha⟩, ⟨%fb, %hfb, Hb⟩, ⟨%fp, %hfp, Hp⟩, ⟨%fq, %hfq, Hq⟩,
    ⟨%fr, %hfr, Hr⟩, ⟨%fs, %hfs, Hs⟩, ⟨%fo, %hfo, Ho⟩, ⟨%fu, %hfu, Hu⟩, ⟨%fv, %hfv, Hv⟩, Hk⟩
  subst hfx hfa hfb hfp hfq hfr hfs hfo hfu hfv
  by_cases hc0 : cond2_0 i <;> by_cases hc1 : cond2_1 i <;>
  · first | have h0 := eq_false hc0 | have h0 := eq_true hc0
    first | have h1 := eq_false hc1 | have h1 := eq_true hc1
    simp only [h0, h1, if_true, if_false]
    sl_exec (disch := first | exact hc0 | exact hc1)
    sl_step
    iapply Hk
    (isplitl [Hx]; iexists _; isplitr; swap; iexact Hx; swap
     isplitl [Ha]; iexists _; isplitr; swap; iexact Ha; swap
     isplitl [Hb]; iexists _; isplitr; swap; iexact Hb; swap
     isplitl [Hp]; iexists _; isplitr; swap; iexact Hp; swap
     isplitl [Hq]; iexists _; isplitr; swap; iexact Hq; swap
     isplitl [Hr]; iexists _; isplitr; swap; iexact Hr; swap
     isplitl [Hs]; iexists _; isplitr; swap; iexact Hs; swap
     isplitl [Ho]; iexists _; isplitr; swap; iexact Ho; swap
     isplitl [Hu]; iexists _; isplitr; swap; iexact Hu; swap
     iexists _; isplitr; swap; iexact Hv) <;>
    (ipureintro; first | rfl | (sl_unfold_words; rw [read_writes_whole_last _ _ zero_off2]; simp only [View.readAt_eq_ld, readCov_whole_last (S := S1024x512) _ zero_off2, View.ld_unit_zero (S := S1024x1024) zero_off2, View.ld_unit_zero (S := S1024x512) zero_off2, View.ld_unit_zero (S := S1x512) zero_off2]))

end Cert.Kernel.Hand

end
-- ==== Proof.KB.R2Body.lean ====
import proofs.«428350_j82789789597763_3_alg».proof.Proof.Gen.Kernel.Launch
import proofs.«428350_j82789789597763_3_alg».proof.Proof.Gen.Kernel.Skeleton
import proofs.«428350_j82789789597763_3_alg».proof.Proof.Gen.Kernel.Points
import proofs.«428350_j82789789597763_3_alg».proof.Proof.KB.R2Defs
import proofs.«428350_j82789789597763_3_alg».proof.Proof.KB.R2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- each input block the body is handed is the block of the entry array at that point
theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;>
  exact fun d => ((dat2 V c).before_in_eq_fetched _ rfl (fun _ => rfl) (fun _ _ _ => rfl) (fun _ => rfl) t d).trans rfl

-- at the contraction's last step the output block is the polynomial of the finished accumulators
theorem leaves2_out (c : Dev nD) (t : Fin cfg2.N) (h : cond2_1 (grid2.coords t)) :
    (dat2 V c).leavesExact 7 t = owns (c : Thread nD τ) (st2_7 t) fullShare (out2 V c t) := by
  unfold Dat.leavesExact
  rw [show cfg2.idle 7 (grid2.coords t) = false from by show (!(_ == 1#1)) = false; rw [Bool.not_eq_false', beq_iff_eq]; exact h, after2_7]

-- off the last step the output block is handed back as found
theorem leaves2_idle (c : Dev nD) (t : Fin cfg2.N) (h : ¬cond2_1 (grid2.coords t)) :
    (dat2 V c).leavesExact 7 t = iprop(∃ d, owns (c : Thread nD τ) (st2_7 t) fullShare ((dat2 V c).before 7 t d)) :=
  Dat.leavesExact_idle (dat2 V c) 7 t (by show (!(_ == 1#1)) = true; rw [Bool.not_eq_true', beq_eq_false_iff_ne]; exact h)
    (by rw [← Bool.not_eq_true]; exact fun hf => h ((hcond2_1 t).mpr ((flush2_7 t).mp hf)))

-- the invariant at any position: both accumulators at some contents, which past the first point are the previous point's
theorem PhiS2_open (c : Dev nD) (n : ℕ) (h : n ≤ cfg2.N) :
    PhiS2 V c n h ⊢ iprop(∃ sa sb, ⌜∀ hn : n ≠ 0, (sa, sb) = acc2 V c (n - 1) (by omega)⌝
      ∗ owns (c : Thread nD τ) scM2_0 fullShare sa ∗ owns (c : Thread nD τ) scM2_1 fullShare sb ∗ rest2 (F := F) c) := by
  cases n with
  | zero =>
    unfold PhiS2; iintro ⟨⟨⟨%sa, Ha⟩, ⟨%sb, Hb⟩⟩, Hr⟩
    iexists sa, sb; isplitr; · ipureintro; exact fun hn => absurd rfl hn
    iframe
  | succ n =>
    unfold PhiS2; iintro ⟨⟨Ha, Hb⟩, Hr⟩
    iexists (acc2 V c n h).1, (acc2 V c n h).2; isplitr; · ipureintro; exact fun _ => rfl
    iframe

-- the accumulators after point t from those before it: restarted exactly where the contraction coordinate is 0
theorem acc2_eq (c : Dev nD) (t : Fin cfg2.N) (sa sb : Vec F S1024x512 .f32)
    (hs : ∀ hn : t.val ≠ 0, (sa, sb) = acc2 V c (t.val - 1) (by omega)) :
    acc2 V c t.val t.isLt = (k2_pay4 (xb2 V c t) (if cond2_0 (grid2.coords t) then k2_pay1 else sa) (oa2 V c t),
      k2_pay5 (xb2 V c t) (if cond2_0 (grid2.coords t) then k2_pay2 else sb) (ob2 V c t)) := by
  by_cases h0 : t.val % 8 = 0
  · rw [acc2_first V c t h0, if_pos ((hcond2_0 t).mpr h0), if_pos ((hcond2_0 t).mpr h0)]
  · have hc : ¬cond2_0 (grid2.coords t) := fun h => h0 ((hcond2_0 t).mp h)
    rw [acc2_next V c t h0, if_neg hc, if_neg hc, ← hs fun h => h0 (by rw [h])]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop(PhiS2 V c (t.val + 1) t.isLt ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ (dat2 V c).leavesExact 7 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2 V c t]
  rw [PhiS2_castSucc V c t, PhiS2_succ]
  iintro ⟨HΦ, Howe, ⟨%dx, HX⟩, ⟨%da, HA⟩, ⟨%db, HB⟩, ⟨%dp, HP⟩, ⟨%dq, HQ⟩, ⟨%dr, HR⟩, ⟨%ds, HS⟩, ⟨%dO, HO⟩⟩
  ihave H := PhiS2_open V c _ _ $$ HΦ
  icases H with ⟨%sa, %sb, %hs, HSa, HSb, Hrest⟩
  rw [acc2_eq V c t sa sb hs]
  iapply (run2 c (grid2.coords t) _ _ _ _ _ _ _ _ _ _ _ _ _ _ _ _ _ _ _ _ (xb2 V c t) (oa2 V c t) (ob2 V c t) (c0b2 V c t) (c1b2 V c t) (c2b2 V c t) (c3b2 V c t) ((dat2 V c).before 7 t dO) sa sb Set.univ _)
  iframe HX HA HB HP HQ HR HS HO HSa HSb
  iintro ⟨HX, HA, HB, HP, HQ, HR, HS, HO, HSa, HSb⟩
  iframe HSa HSb Hrest Howe HX HA HB HP HQ HR HS
  by_cases h1 : cond2_1 (grid2.coords t)
  · rw [leaves2_out V c t h1, if_pos h1]; unfold out2; rw [acc2_eq V c t sa sb hs]; iexact HO
  · rw [leaves2_idle V c t h1, if_neg h1]; iexists _; iexact HO

theorem body_obligation2 (c : Dev nD) : BodyObligation (dat2 (F := F) V c) (defs₀ (F := F)) Variants.none () Set.univ := fun t => by
  rw [bigSep_W2, bigSep_W2]
  exact sound_body2 V c t

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl, PhiA2_eq]
  unfold rest2
  iintro ⟨⟨HS, Hrest⟩, Hg⟩
  iframe

theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl, PhiA2_eq]
  iintro H
  ihave H := PhiS2_open V c _ _ $$ H
  icases H with ⟨%sa, %sb, -, HSa, HSb, Hrest, Hg⟩
  iframe Hrest Hg
  isplitl [HSa] <;> iexists _ <;> iassumption

end Cert.Kernel.Hand

end
-- ==== Proof.KB.Regs.lean ====
import proofs.«428350_j82789789597763_3_alg».proof.Proof.Gen.Kernel.Regions
import proofs.«428350_j82789789597763_3_alg».proof.Proof.KB.R0Body
import proofs.«428350_j82789789597763_3_alg».proof.Proof.KB.R1Body
import proofs.«428350_j82789789597763_3_alg».proof.Proof.KB.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Va5 (c : Dev nD) : Valuation τ sig (Elt F) := V5 m c

def o0 (c : Dev nD) : Buf (Elt F) ((c : Thread nD τ).loc main_v61) :=
  (dat0 (fun c b => Va5 m c b) c).arrAt 7 cfg0.N

abbrev Va6 (c : Dev nD) : Valuation τ sig (Elt F) := Function.update (Va5 m c) main_v61 (o0 m c)

abbrev Va11 (c : Dev nD) : Valuation τ sig (Elt F) :=
  StableHlo.after hostOps1_4 (StableHlo.after hostOps1_3 (StableHlo.after hostOps1_2 (StableHlo.after hostOps1_1
    (StableHlo.after hostOps1 (Va6 m c)))))

def o1 (c : Dev nD) : Buf (Elt F) ((c : Thread nD τ).loc main_v86) :=
  (dat1 (fun c b => Va11 m c b) c).arrAt 7 cfg1.N

abbrev Va12 (c : Dev nD) : Valuation τ sig (Elt F) := Function.update (Va11 m c) main_v86 (o1 m c)

abbrev Va17 (c : Dev nD) : Valuation τ sig (Elt F) :=
  StableHlo.after hostOps2_4 (StableHlo.after hostOps2_3 (StableHlo.after hostOps2_2 (StableHlo.after hostOps2_1
    (StableHlo.after hostOps2 (Va12 m c)))))

def o2 (c : Dev nD) : Buf (Elt F) ((c : Thread nD τ).loc main_v111) :=
  (dat2 (fun c b => Va17 m c b) c).arrAt 7 cfg2.N

abbrev Va18 (c : Dev nD) : Valuation τ sig (Elt F) := Function.update (Va17 m c) main_v111 (o2 m c)

abbrev Va19 (c : Dev nD) : Valuation τ sig (Elt F) := StableHlo.after hostOps3 (Va18 m c)

-- the three launches' output arrays, by their position in the program
def outs : Outs (F := F) := fun J r c =>
  match J with
  | 6 => Va6 m c r
  | 12 => Va12 m c r
  | _ => Va18 m c r

theorem outs_6 (r : Ref sig .tc) (c : Dev nD) : outs m 6 r c = Va6 m c r := rfl
theorem outs_12 (r : Ref sig .tc) (c : Dev nD) : outs m 12 r c = Va12 m c r := rfl
theorem outs_18 (r : Ref sig .tc) (c : Dev nD) : outs m 18 r c = Va18 m c r := rfl

theorem hV6 (c : Dev nD) : V6 m (outs m) c = Va6 m c :=
  congrArg (Function.update (V5 m c) (Proc.devRef .tc main_v61))
    ((outs_6 m main_v61 c).trans (Function.update_self _ _ _))
theorem hV11 (c : Dev nD) : V11 m (outs m) c = Va11 m c :=
  congrArg (fun v => StableHlo.after hostOps1_4 (StableHlo.after hostOps1_3 (StableHlo.after hostOps1_2
    (StableHlo.after hostOps1_1 (StableHlo.after hostOps1 v))))) (hV6 m c)
theorem hV12 (c : Dev nD) : V12 m (outs m) c = Va12 m c :=
  (congrArg (Function.update (V11 m (outs m) c) (Proc.devRef .tc main_v86))
    ((outs_12 m main_v86 c).trans (Function.update_self _ _ _))).trans
    (congrArg (fun v => Function.update v (Proc.devRef .tc main_v86) (o1 m c)) (hV11 m c))
theorem hV17 (c : Dev nD) : V17 m (outs m) c = Va17 m c :=
  congrArg (fun v => StableHlo.after hostOps2_4 (StableHlo.after hostOps2_3 (StableHlo.after hostOps2_2
    (StableHlo.after hostOps2_1 (StableHlo.after hostOps2 v))))) (hV12 m c)
theorem hV18 (c : Dev nD) : V18 m (outs m) c = Va18 m c :=
  (congrArg (Function.update (V17 m (outs m) c) (Proc.devRef .tc main_v111))
    ((outs_18 m main_v111 c).trans (Function.update_self _ _ _))).trans
    (congrArg (fun v => Function.update v (Proc.devRef .tc main_v111) (o2 m c)) (hV17 m c))
theorem hV19 (c : Dev nD) : V19 m (outs m) c = Va19 m c :=
  congrArg (fun v => StableHlo.after hostOps3 v) (hV18 m c)

-- every launch's proof data at its entry contents
def pdats : (p : Fin 3) → (c : Dev nD) → Dat τ (Elt F) Unit ℕ (UR sig nD τ) ℕ (cfgs p) c
  | ⟨0, _⟩ => fun c => dat0 (fun c b => Va5 m c b) c
  | ⟨1, _⟩ => fun c => dat1 (fun c b => Va11 m c b) c
  | ⟨2, _⟩ => fun c => dat2 (fun c b => Va17 m c b) c

abbrev ride (c : Dev nD) : sProp 𝕄 :=
  iprop((∃ r, prngReg c r) ∗ ∃ W, owes (c : Thread nD τ) (0 : CellTallies nD τ sig Unit) W)

theorem entry_sort (c : Dev nD) {H A Zr P O Lv : sProp 𝕄} (hsplit : H ⊢ iprop(A ∗ Zr))
    (hP : (BI.emp : sProp 𝕄) ⊢ P)
    (hO : (iprop(∃ W, owes (c : Thread nD τ) (0 : CellTallies nD τ sig Unit) W) : sProp 𝕄) ⊢ O) :
    (iprop(iprop(H ∗ ride (F := F) c) ∗ emp ∗ Lv) : sProp 𝕄)
      ⊢ |={Set.univ}=> iprop(A ∗ P ∗ O ∗ iprop(∃ r, prngReg c r) ∗ Zr) := by
  iintro ⟨⟨Hub, Hp, HO⟩, -, -⟩
  ihave H := hsplit $$ Hub
  icases H with ⟨Ha, Hrest⟩
  imodintro
  iframe Ha Hp Hrest
  isplitr; · iapply hP; iempintro
  iapply hO; iexact HO

theorem exit_sort (c : Dev nD) {H' A Zr O : sProp 𝕄} (hjoin : iprop(A ∗ Zr) ⊢ H')
    (hO : O ⊢ (iprop(∃ W, owes (c : Thread nD τ) (0 : CellTallies nD τ sig Unit) W) : sProp 𝕄)) :
    (iprop(A ∗ O ∗ iprop(∃ r, prngReg c r) ∗ Zr) : sProp 𝕄) ⊢ |={Set.univ}=> iprop(H' ∗ ride (F := F) c) := by
  iintro ⟨Ha, HO, HY, Hrest⟩
  imodintro
  isplitl [Ha Hrest]
  · iapply hjoin; isplitl [Ha] <;> iassumption
  isplitl [HY]; · iexact HY
  iapply hO; iexact HO

theorem toΦA {gr W : Nat} (win : Fin W → Pipeline.WinSpec sig gr) (c : Dev nD) (P : sProp 𝕄) :
    (iprop(iprop(∃ r, prngReg c r) ∗ P ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  iframe

theorem ofΦA {gr W : Nat} (win : Fin W → Pipeline.WinSpec sig gr) (c : Dev nD) :
    (Pipeline.ΦA win c : sProp 𝕄)
      ⊢ iprop(iprop(∃ r, prngReg c r) ∗ emp ∗ Pipeline.scopedRest (Ix := Unit) (Name := ℕ) (U := UR sig nD τ) (Lvl := ℕ) (Val := Elt F) win c) := by
  unfold Pipeline.ΦA
  iintro ⟨Hr, Hp⟩
  iframe

theorem hF0_in (c : Dev nD) (w : Fin cfg0.W) (hin : (cfg0.win w).isOut = false) (hne : Pipeline.arrRef spec0 w ≠ main_v61) :
    (pdats m 0 c).arrAt w cfg0.N = Va6 m c (Pipeline.arrRef spec0 w) :=
  (((dat0 (fun c b => Va5 m c b) c).arrAt_in w hin _).trans (A_eq0 (fun c b => Va5 m c b) c w)).trans
    (Function.update_of_ne (StableHlo.devRef_ne_of_ne hne) _ _).symm

theorem hF0 (c : Dev nD) : ∀ w : Fin cfg0.W, (pdats m 0 c).arrAt w cfg0.N = Va6 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => (Function.update_self (Proc.devRef .tc main_v61) (o0 m c) (Va5 m c)).symm

theorem hrest0 (c : Dev nD) : ∀ b : Ref sig .tc, b ∉ Finset.univ.image (Pipeline.arrRef spec0) → Va6 m c b = Va5 m c b :=
  fun b hb => Function.update_of_ne (StableHlo.devRef_ne_of_ne fun e =>
    hb (Finset.mem_image.mpr ⟨7, Finset.mem_univ _, e.symm⟩)) _ _

theorem owes_in0 (c : Dev nD) :
    (iprop(∃ W, owes (c : Thread nD τ) (0 : CellTallies nD τ sig Unit) W) : sProp 𝕄) ⊢ (pdats m 0 c).owesAt () 0 := by
  unfold Pipeline.Dat.owesAt Pipeline.owesWithin
  iintro ⟨%W, HO⟩; iexists W; isplitr; · ipureintro; exact fun _ _ => Or.inl trivial
  iexact HO

theorem owes_out0 (c : Dev nD) :
    (pdats m 0 c).owesAt () (Fin.last cfg0.N) ⊢ (iprop(∃ W, owes (c : Thread nD τ) (0 : CellTallies nD τ sig Unit) W) : sProp 𝕄) := by
  unfold Pipeline.Dat.owesAt Pipeline.owesWithin
  iintro ⟨%W, -, HO⟩; iexists W; iexact HO

set_option backward.isDefEq.respectTransparency.types false in

def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (fun c b => Va5 m c b) c).loose
  hwaits := Pipeline.hwaits_of_owed_zero _ _ _ _ (fun _ => ∅) (fun _ _ => 0) 0 fun _ _ => rfl
  pre c := iprop(StableHlo.held (c : Thread nD τ) (Pipeline.ucRefs τ sig) (Va5 m c) ∗ ride c)
  post c := iprop(StableHlo.held (c : Thread nD τ) (Pipeline.ucRefs τ sig) (Va6 m c) ∗ ride c)
  X c := iprop(∃ r, prngReg c r)
  Y c := iprop(∃ r, prngReg c r)
  Z c := Pipeline.unscopedRest (Ix := Unit) (Name := ℕ) (U := UR sig nD τ) (Lvl := ℕ) spec0 c (fun b => Va5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Va5 m c b) fun _ => rfl
    rw [Pipeline.unscopedBufs_held] at hsplit
    exact entry_sort c hsplit
      (by unfold Pipeline.prefHeld; rw [show (Finset.univ : Finset (Fin 0)) = ∅ from rfl, BI.bigSep_empty])
      (owes_in0 m c)
  hin c := (toΦA spec0 c _).trans (hin0 (fun c b => Va5 m c b) c)
  hout c := by
    rw [Pipeline.ownSems0_none]
    exact (hout0 (fun c b => Va5 m c b) c).trans (ofΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Va5 m c b) (fun b => Va6 m c b) ((pdats m 0 c).arrAt · cfg0.N) (hF0 m c) (hrest0 m c)
    rw [Pipeline.unscopedBufs_held] at hjoin
    exact exit_sort c hjoin (owes_out0 m c)

theorem hF1_in (c : Dev nD) (w : Fin cfg1.W) (hin : (cfg1.win w).isOut = false) (hne : Pipeline.arrRef spec1 w ≠ main_v86) :
    (pdats m 1 c).arrAt w cfg1.N = Va12 m c (Pipeline.arrRef spec1 w) :=
  (((dat1 (fun c b => Va11 m c b) c).arrAt_in w hin _).trans (A_eq1 (fun c b => Va11 m c b) c w)).trans
    (Function.update_of_ne (StableHlo.devRef_ne_of_ne hne) _ _).symm

theorem hF1 (c : Dev nD) : ∀ w : Fin cfg1.W, (pdats m 1 c).arrAt w cfg1.N = Va12 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => (Function.update_self (Proc.devRef .tc main_v86) (o1 m c) (Va11 m c)).symm

theorem hrest1 (c : Dev nD) : ∀ b : Ref sig .tc, b ∉ Finset.univ.image (Pipeline.arrRef spec1) → Va12 m c b = Va11 m c b :=
  fun b hb => Function.update_of_ne (StableHlo.devRef_ne_of_ne fun e =>
    hb (Finset.mem_image.mpr ⟨7, Finset.mem_univ _, e.symm⟩)) _ _

theorem owes_in1 (c : Dev nD) :
    (iprop(∃ W, owes (c : Thread nD τ) (0 : CellTallies nD τ sig Unit) W) : sProp 𝕄) ⊢ (pdats m 1 c).owesAt () 0 := by
  unfold Pipeline.Dat.owesAt Pipeline.owesWithin
  iintro ⟨%W, HO⟩; iexists W; isplitr; · ipureintro; exact fun _ _ => Or.inl trivial
  iexact HO

theorem owes_out1 (c : Dev nD) :
    (pdats m 1 c).owesAt () (Fin.last cfg1.N) ⊢ (iprop(∃ W, owes (c : Thread nD τ) (0 : CellTallies nD τ sig Unit) W) : sProp 𝕄) := by
  unfold Pipeline.Dat.owesAt Pipeline.owesWithin
  iintro ⟨%W, -, HO⟩; iexists W; iexact HO

set_option backward.isDefEq.respectTransparency.types false in

def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (fun c b => Va11 m c b) c).loose
  hwaits := Pipeline.hwaits_of_owed_zero _ _ _ _ (fun _ => ∅) (fun _ _ => 0) 1 fun _ _ => rfl
  pre c := iprop(StableHlo.held (c : Thread nD τ) (Pipeline.ucRefs τ sig) (Va11 m c) ∗ ride c)
  post c := iprop(StableHlo.held (c : Thread nD τ) (Pipeline.ucRefs τ sig) (Va12 m c) ∗ ride c)
  X c := iprop(∃ r, prngReg c r)
  Y c := iprop(∃ r, prngReg c r)
  Z c := Pipeline.unscopedRest (Ix := Unit) (Name := ℕ) (U := UR sig nD τ) (Lvl := ℕ) spec1 c (fun b => Va11 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Va11 m c b) fun _ => rfl
    rw [Pipeline.unscopedBufs_held] at hsplit
    exact entry_sort c hsplit
      (by unfold Pipeline.prefHeld; rw [show (Finset.univ : Finset (Fin 0)) = ∅ from rfl, BI.bigSep_empty])
      (owes_in1 m c)
  hin c := (toΦA spec1 c _).trans (hin1 (fun c b => Va11 m c b) c)
  hout c := by
    rw [Pipeline.ownSems0_none]
    exact (hout1 (fun c b => Va11 m c b) c).trans (ofΦA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Va11 m c b) (fun b => Va12 m c b) ((pdats m 1 c).arrAt · cfg1.N) (hF1 m c) (hrest1 m c)
    rw [Pipeline.unscopedBufs_held] at hjoin
    exact exit_sort c hjoin (owes_out1 m c)

theorem hF2_in (c : Dev nD) (w : Fin cfg2.W) (hin : (cfg2.win w).isOut = false) (hne : Pipeline.arrRef spec2 w ≠ main_v111) :
    (pdats m 2 c).arrAt w cfg2.N = Va18 m c (Pipeline.arrRef spec2 w) :=
  (((dat2 (fun c b => Va17 m c b) c).arrAt_in w hin _).trans (A_eq2 (fun c b => Va17 m c b) c w)).trans
    (Function.update_of_ne (StableHlo.devRef_ne_of_ne hne) _ _).symm

theorem hF2 (c : Dev nD) : ∀ w : Fin cfg2.W, (pdats m 2 c).arrAt w cfg2.N = Va18 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => (Function.update_self (Proc.devRef .tc main_v111) (o2 m c) (Va17 m c)).symm

theorem hrest2 (c : Dev nD) : ∀ b : Ref sig .tc, b ∉ Finset.univ.image (Pipeline.arrRef spec2) → Va18 m c b = Va17 m c b :=
  fun b hb => Function.update_of_ne (StableHlo.devRef_ne_of_ne fun e =>
    hb (Finset.mem_image.mpr ⟨7, Finset.mem_univ _, e.symm⟩)) _ _

theorem owes_in2 (c : Dev nD) :
    (iprop(∃ W, owes (c : Thread nD τ) (0 : CellTallies nD τ sig Unit) W) : sProp 𝕄) ⊢ (pdats m 2 c).owesAt () 0 := by
  unfold Pipeline.Dat.owesAt Pipeline.owesWithin
  iintro ⟨%W, HO⟩; iexists W; isplitr; · ipureintro; exact fun _ _ => Or.inl trivial
  iexact HO

theorem owes_out2 (c : Dev nD) :
    (pdats m 2 c).owesAt () (Fin.last cfg2.N) ⊢ (iprop(∃ W, owes (c : Thread nD τ) (0 : CellTallies nD τ sig Unit) W) : sProp 𝕄) := by
  unfold Pipeline.Dat.owesAt Pipeline.owesWithin
  iintro ⟨%W, -, HO⟩; iexists W; iexact HO

set_option backward.isDefEq.respectTransparency.types false in

def reg2 : Pipeline.RegionSeg (pcfgs (F := F)) adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (fun c b => Va17 m c b) c).loose
  hwaits := Pipeline.hwaits_of_owed_zero _ _ _ _ (fun _ => ∅) (fun _ _ => 0) 2 fun _ _ => rfl
  pre c := iprop(StableHlo.held (c : Thread nD τ) (Pipeline.ucRefs τ sig) (Va17 m c) ∗ ride c)
  post c := iprop(StableHlo.held (c : Thread nD τ) (Pipeline.ucRefs τ sig) (Va18 m c) ∗ ride c)
  X c := iprop(∃ r, prngReg c r)
  Y c := iprop(∃ r, prngReg c r)
  Z c := Pipeline.unscopedRest (Ix := Unit) (Name := ℕ) (U := UR sig nD τ) (Lvl := ℕ) spec2 c (fun b => Va17 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => Va17 m c b) fun _ => rfl
    rw [Pipeline.unscopedBufs_held] at hsplit
    exact entry_sort c hsplit
      (by unfold Pipeline.prefHeld; rw [show (Finset.univ : Finset (Fin 0)) = ∅ from rfl, BI.bigSep_empty])
      (owes_in2 m c)
  hin c := (toΦA spec2 c _).trans (hin2 (fun c b => Va17 m c b) c)
  hout c := by
    rw [Pipeline.ownSems0_none]
    exact (hout2 (fun c b => Va17 m c b) c).trans (ofΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => Va17 m c b) (fun b => Va18 m c b) ((pdats m 2 c).arrAt · cfg2.N) (hF2 m c) (hrest2 m c)
    rw [Pipeline.unscopedBufs_held] at hjoin
    exact exit_sort c hjoin (owes_out2 m c)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ∗ levAts (fun _ : GSem nD τ sig => (∅ : Finset Unit)) (fun _ _ => (0 : ℕ))) : sProp 𝕄)
    ⊢ |={Set.univ}=> bigSep Finset.univ (fun c : Dev nD => ride (F := F) c) :=
  Pipeline.initEach _ _ fun c => by
    iintro ⟨⟨-, HO, -, Hp, -⟩, -⟩
    imodintro
    isplitl [Hp]; · iexists _; iexact Hp
    iexists ∅; iexact HO

theorem hE3 (c : Dev nD) : ride (F := F) c
    ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () Variants.none (fun _ => ∅) (fun _ _ => 0) (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) hu₀
    (fun _ c => ride c) (hE0 ρ) hE3
    (reg0 m) (fun c => .rfl) (fun c => by rw [hV6]; exact .rfl)
    (reg1 m) (fun c => by rw [hV11]; exact .rfl) (fun c => by rw [hV12]; exact .rfl)
    (reg2 m) (fun c => by rw [hV17]; exact .rfl) (fun c => by rw [hV18]; exact .rfl)

end Cert.Kernel.Hand

end
-- ==== Proof.KI.R0Defs.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S1024x1024 .bf16 := iblk0 V c 0 t
abbrev oa0 (c : Dev nD) (t : Fin cfg0.N) : Vec F S1024x1024 .bf16 := iblk0 V c 1 t
abbrev ob0 (c : Dev nD) (t : Fin cfg0.N) : Vec F S1024x1024 .bf16 := iblk0 V c 2 t
abbrev c0b0 (c : Dev nD) (t : Fin cfg0.N) : Vec F S1x1024 .f32 := iblk0 V c 3 t
abbrev c1b0 (c : Dev nD) (t : Fin cfg0.N) : Vec F S1x1024 .f32 := iblk0 V c 4 t
abbrev c2b0 (c : Dev nD) (t : Fin cfg0.N) : Vec F S1x1024 .f32 := iblk0 V c 5 t
abbrev c3b0 (c : Dev nD) (t : Fin cfg0.N) : Vec F S1x1024 .f32 := iblk0 V c 6 t

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1

theorem hcond0_1 : ∀ t : Fin cfg0.N, cond0_1 (grid0.coords t) :=
  (by decide +kernel : ∀ t : Fin grid0.N, cond0_1 (grid0.coords t))

-- the contraction has one step: each accumulator is the point's product on top of zero
def accA0 (x : Vec F S1024x1024 .bf16) (oa : Vec F S1024x1024 .bf16) : Vec F S1024x1024 .f32 := k0_pay4 x k0_pay1 oa
def accB0 (x : Vec F S1024x1024 .bf16) (ob : Vec F S1024x1024 .bf16) : Vec F S1024x1024 .f32 := k0_pay5 x k0_pay2 ob

def out0 (c : Dev nD) (t : Fin cfg0.N) : Vec F S1024x1024 .bf16 :=
  k0_pay6 (accA0 (xb0 V c t) (oa0 V c t)) (accB0 (xb0 V c t) (ob0 V c t)) (c0b0 V c t) (c1b0 V c t) (c2b0 V c t) (c3b0 V c t)

abbrev scM0_0 : Memref sig .tc .vmem S1024x1024 .f32 := Memref.whole cc0_scratch0
abbrev scM0_1 : Memref sig .tc .vmem S1024x1024 .f32 := Memref.whole cc0_scratch1

abbrev rest0 (c : Dev nD) : sProp 𝕄 :=
  iprop(Pipeline.scopedRestBut (Ix := Unit) (Name := ℕ) (U := UR sig nD τ) (Lvl := ℕ) (Val := Elt F) spec0 c [cc0_scratch0, cc0_scratch1] ∗ ∃ r, prngReg c r)

def Phi0 (c : Dev nD) : sProp 𝕄 :=
  iprop(iprop((∃ d, owns (c : Thread nD τ) scM0_0 fullShare d) ∗ (∃ d, owns (c : Thread nD τ) scM0_1 fullShare d)) ∗ rest0 (F := F) c)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c t
  Φ _ := Phi0 (F := F) c
  q _ := fullShare
  owed _ := 0

theorem A_eq0 (c : Dev nD) (w : Fin cfg0.W) : (dat0 V c).A w = V c (Pipeline.arrRef spec0 w) := by
  dsimp only [dat0]
theorem after0_7 (c : Dev nD) (t : Fin cfg0.N) : (dat0 V c).after 7 t = out0 V c t := by dsimp only [dat0]

end Cert.KernelIdeal.Hand

end
-- ==== Proof.KI.R0Run.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import proofs.«428350_j82789789597763_3_alg».proof.Proof.KI.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_off2 : (![0, 0] : Fin 2 → ℕ) = fun _ => 0 := by
  funext a; fin_cases a <;> rfl

section WholeBuffer

variable {Val : EltTy → Type} [∀ e, Nonempty (Val e)] {S : Shape} {e : EltTy}
variable {sg : RefSig} {κ : Kind} {sp : Space}

-- a buffer whose last store covered the whole shape reads that store's payload
theorem read_writes_whole_last (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem readCov_whole_last (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h, View.ld_unit_zero h]

end WholeBuffer

-- both branches are taken at every point: the accumulators restart from zero and the output block is stored
set_option maxHeartbeats 1000000 in
theorem run0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)
    (hc0 : cond0_0 i) (hc1 : cond0_1 i)
    (x : Vec F S1024x1024 .bf16) (oa ob : Vec F S1024x1024 .bf16) (k0 k1 k2 k3 : Vec F S1x1024 .f32) (E : Set ℕ) (K : PUnit → sProp 𝕄) :
    iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
            ∗ owns (c : Thread nD τ) arg10 fullShare (k0_pay6 (accA0 x oa) (accB0 x ob) k0 k1 k2 k3) ∗ owns (c : Thread nD τ) arg11 fullShare (accA0 x oa) ∗ owns (c : Thread nD τ) arg12 fullShare (accB0 x ob)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel owns accA0 accB0
  iintro ⟨⟨%fx, %hfx, Hx⟩, ⟨%fa, %hfa, Ha⟩, ⟨%fb, %hfb, Hb⟩, ⟨%fp, %hfp, Hp⟩, ⟨%fq, %hfq, Hq⟩,
    ⟨%fr, %hfr, Hr⟩, ⟨%fs, %hfs, Hs⟩, ⟨%yo, %fo, -, Ho⟩, ⟨%yu, %fu, -, Hu⟩, ⟨%yv, %fv, -, Hv⟩, Hk⟩
  subst hfx hfa hfb hfp hfq hfr hfs
  sl_exec (disch := first | exact hc0 | exact hc1)
  sl_step
  iapply Hk
  (isplitl [Hx]; iexists _; isplitr; swap; iexact Hx; swap
   isplitl [Ha]; iexists _; isplitr; swap; iexact Ha; swap
   isplitl [Hb]; iexists _; isplitr; swap; iexact Hb; swap
   isplitl [Hp]; iexists _; isplitr; swap; iexact Hp; swap
   isplitl [Hq]; iexists _; isplitr; swap; iexact Hq; swap
   isplitl [Hr]; iexists _; isplitr; swap; iexact Hr; swap
   isplitl [Hs]; iexists _; isplitr; swap; iexact Hs; swap
   isplitl [Ho]; iexists _; isplitr; swap; iexact Ho; swap
   isplitl [Hu]; iexists _; isplitr; swap; iexact Hu; swap
   iexists _; isplitr; swap; iexact Hv) <;>
  (ipureintro; first | rfl | (sl_unfold_words; rw [read_writes_whole_last _ _ zero_off2]; simp only [View.readAt_eq_ld, readCov_whole_last (S := S1024x1024) _ zero_off2, View.ld_unit_zero (S := S1024x1024) zero_off2, View.ld_unit_zero (S := S1x1024) zero_off2]))

end Cert.KernelIdeal.Hand

end
-- ==== Proof.KI.R0Body.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import proofs.«428350_j82789789597763_3_alg».proof.Proof.KI.R0Defs
import proofs.«428350_j82789789597763_3_alg».proof.Proof.KI.R0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- each input block the body is handed is the block of the entry array at that point
theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t)
    ∧ (∀ d, (dat0 V c).before 6 t d = iblk0 V c 6 t) := by
  refine ⟨?_, ?_, ?_, ?_, ?_, ?_, ?_⟩ <;>
  exact fun d => ((dat0 V c).before_in_eq_fetched _ rfl (fun _ => rfl) (fun _ _ _ => rfl) (fun _ => rfl) t d).trans rfl

-- the contraction has one step, so the output block is stored at every point
theorem leaves0_out (c : Dev nD) (t : Fin cfg0.N) :
    (dat0 V c).leavesExact 7 t = owns (c : Thread nD τ) (st0_7 t) fullShare (out0 V c t) := by
  unfold Dat.leavesExact
  rw [show cfg0.idle 7 (grid0.coords t) = false from by show (!(_ == 1#1)) = false; rw [Bool.not_eq_false', beq_iff_eq]; exact hcond0_1 t, after0_7]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop(Phi0 (F := F) c ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare (iblk0 V c 6 t)
    ∗ (dat0 V c).leavesExact 7 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c t]
  rw [show (dat0 V c).Φ t.castSucc = Phi0 (F := F) c from rfl, leaves0_out V c t]
  unfold Phi0 out0
  iintro ⟨⟨⟨HA, HB⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0 c (grid0.coords t) _ _ _ _ _ _ _ _ _ _ _ _ _ _ _ _ _ _ _ _ (hcond0_0 t) (hcond0_1 t)
    (xb0 V c t) (oa0 V c t) (ob0 V c t) (c0b0 V c t) (c1b0 V c t) (c2b0 V c t) (c3b0 V c t) Set.univ _)
  iframe H0 H1 H2 H3 H4 H5 H6 HA HB
  isplitl [H7]; · iexists _; iexact H7
  iintro ⟨H0, H1, H2, H3, H4, H5, H6, H7, HA, HB⟩
  iframe Hr Ho H0 H1 H2 H3 H4 H5 H6 H7
  isplitl [HA] <;> iexists _ <;> iassumption

theorem body_obligation0 (c : Dev nD) : BodyObligation (dat0 (F := F) V c) (defs₀ (F := F)) Variants.none () Set.univ := fun t => by
  rw [bigSep_W0, bigSep_W0]
  exact sound_body0 V c t

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

theorem hin0 (c : Dev nD) : (Pipeline.ΦA spec0 c : sProp 𝕄) ⊢ (dat0 V c).Φ 0 := by
  rw [PhiA0_eq]; show _ ⊢ Phi0 (F := F) c; unfold Phi0 rest0
  iintro ⟨⟨HS, Hrest⟩, Hg⟩
  iframe

theorem hout0 (c : Dev nD) : (dat0 V c).Φ (Fin.last cfg0.N) ⊢ (Pipeline.ΦA spec0 c : sProp 𝕄) := by
  rw [PhiA0_eq]; show Phi0 (F := F) c ⊢ _; unfold Phi0 rest0
  iintro ⟨HS, Hrest, Hg⟩
  iframe

end Cert.KernelIdeal.Hand

end
-- ==== Proof.KI.R1Defs.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S1024x1024 .bf16 := iblk1 V c 0 t
abbrev oa1 (c : Dev nD) (t : Fin cfg1.N) : Vec F S1024x1024 .bf16 := iblk1 V c 1 t
abbrev ob1 (c : Dev nD) (t : Fin cfg1.N) : Vec F S1024x1024 .bf16 := iblk1 V c 2 t
abbrev c0b1 (c : Dev nD) (t : Fin cfg1.N) : Vec F S1x1024 .f32 := iblk1 V c 3 t
abbrev c1b1 (c : Dev nD) (t : Fin cfg1.N) : Vec F S1x1024 .f32 := iblk1 V c 4 t
abbrev c2b1 (c : Dev nD) (t : Fin cfg1.N) : Vec F S1x1024 .f32 := iblk1 V c 5 t
abbrev c3b1 (c : Dev nD) (t : Fin cfg1.N) : Vec F S1x1024 .f32 := iblk1 V c 6 t

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

-- the two accumulators after point n: a sum of products over the contraction steps up to n, restarted where n ≡ 0 (mod 8)
def acc1 (c : Dev nD) : (n : ℕ) → n < cfg1.N → Vec F S1024x1024 .f32 × Vec F S1024x1024 .f32
  | 0, hn => (k1_pay4 (xb1 V c ⟨0, hn⟩) k1_pay1 (oa1 V c ⟨0, hn⟩), k1_pay5 (xb1 V c ⟨0, hn⟩) k1_pay2 (ob1 V c ⟨0, hn⟩))
  | n + 1, hn =>
    if (n + 1) % 8 = 0 then
      (k1_pay4 (xb1 V c ⟨n + 1, hn⟩) k1_pay1 (oa1 V c ⟨n + 1, hn⟩), k1_pay5 (xb1 V c ⟨n + 1, hn⟩) k1_pay2 (ob1 V c ⟨n + 1, hn⟩))
    else
      (k1_pay4 (xb1 V c ⟨n + 1, hn⟩) (acc1 c n (Nat.lt_of_succ_lt hn)).1 (oa1 V c ⟨n + 1, hn⟩),
       k1_pay5 (xb1 V c ⟨n + 1, hn⟩) (acc1 c n (Nat.lt_of_succ_lt hn)).2 (ob1 V c ⟨n + 1, hn⟩))

theorem acc1_first (c : Dev nD) (t : Fin cfg1.N) (h : t.val % 8 = 0) :
    acc1 V c t.val t.isLt = (k1_pay4 (xb1 V c t) k1_pay1 (oa1 V c t), k1_pay5 (xb1 V c t) k1_pay2 (ob1 V c t)) := by
  obtain ⟨n, hn⟩ := t
  cases n with
  | zero => rfl
  | succ n => exact if_pos h

theorem acc1_next (c : Dev nD) (t : Fin cfg1.N) (h : ¬t.val % 8 = 0) :
    acc1 V c t.val t.isLt = (k1_pay4 (xb1 V c t) (acc1 V c (t.val - 1) (Nat.lt_of_le_of_lt (Nat.sub_le _ _) t.isLt)).1 (oa1 V c t),
      k1_pay5 (xb1 V c t) (acc1 V c (t.val - 1) (Nat.lt_of_le_of_lt (Nat.sub_le _ _) t.isLt)).2 (ob1 V c t)) := by
  obtain ⟨n, hn⟩ := t
  cases n with
  | zero => exact absurd (Nat.zero_mod _) h
  | succ n => exact if_neg h

def out1 (c : Dev nD) (t : Fin cfg1.N) : Vec F S1024x1024 .bf16 :=
  k1_pay6 (acc1 V c t.val t.isLt).1 (acc1 V c t.val t.isLt).2 (c0b1 V c t) (c1b1 V c t) (c2b1 V c t) (c3b1 V c t)

abbrev scM1_0 : Memref sig .tc .vmem S1024x1024 .f32 := Memref.whole cc1_scratch0
abbrev scM1_1 : Memref sig .tc .vmem S1024x1024 .f32 := Memref.whole cc1_scratch1

abbrev rest1 (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

-- the loop invariant before position n
def PhiS1 (c : Dev nD) : (n : ℕ) → n ≤ cfg1.N → sProp 𝕄
  | 0, _ => iprop(iprop((∃ d, owns (c : Thread nD τ) scM1_0 fullShare d) ∗ (∃ d, owns (c : Thread nD τ) scM1_1 fullShare d)) ∗ rest1 (F := F) c)
  | n + 1, hn => iprop(iprop(owns (c : Thread nD τ) scM1_0 fullShare (acc1 V c n hn).1 ∗ owns (c : Thread nD τ) scM1_1 fullShare (acc1 V c n hn).2) ∗ rest1 (F := F) c)

theorem PhiS1_zero (c : Dev nD) (n : ℕ) (h : n ≤ cfg1.N) (hz : n = 0) :
    PhiS1 V c n h = iprop(iprop((∃ d, owns (c : Thread nD τ) scM1_0 fullShare d) ∗ (∃ d, owns (c : Thread nD τ) scM1_1 fullShare d)) ∗ rest1 (F := F) c) := by
  subst hz; rfl
theorem PhiS1_succ (c : Dev nD) (n : ℕ) (hn : n < cfg1.N) :
    PhiS1 V c (n + 1) hn = iprop(iprop(owns (c : Thread nD τ) scM1_0 fullShare (acc1 V c n hn).1 ∗ owns (c : Thread nD τ) scM1_1 fullShare (acc1 V c n hn).2) ∗ rest1 (F := F) c) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_7 (c : Dev nD) (t : Fin cfg1.N) : (dat1 V c).after 7 t = out1 V c t := by dsimp only [dat1]

end Cert.KernelIdeal.Hand

end
-- ==== Proof.KI.R1Run.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import proofs.«428350_j82789789597763_3_alg».proof.Proof.KI.R1Defs
import proofs.«428350_j82789789597763_3_alg».proof.Proof.KI.R0Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every grid point at once: the accumulators restart at the contraction's first step, the output block is stored at its last
set_option maxHeartbeats 1000000 in
theorem run1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)
    (x : Vec F S1024x1024 .bf16) (oa ob : Vec F S1024x1024 .bf16) (k0 k1 k2 k3 : Vec F S1x1024 .f32) (o : Vec F S1024x1024 .bf16)
    (sa sb : Vec F S1024x1024 .f32) (E : Set ℕ) (K : PUnit → sProp 𝕄) :
    iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
        ∗ owns (c : Thread nD τ) arg10 fullShare o ∗ owns (c : Thread nD τ) arg11 fullShare sa ∗ owns (c : Thread nD τ) arg12 fullShare sb
        ∗ (iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
            ∗ owns (c : Thread nD τ) arg10 fullShare (if cond1_1 i then k1_pay6 (k1_pay4 x (if cond1_0 i then k1_pay1 else sa) oa) (k1_pay5 x (if cond1_0 i then k1_pay2 else sb) ob) k0 k1 k2 k3 else o) ∗ owns (c : Thread nD τ) arg11 fullShare (k1_pay4 x (if cond1_0 i then k1_pay1 else sa) oa) ∗ owns (c : Thread nD τ) arg12 fullShare (k1_pay5 x (if cond1_0 i then k1_pay2 else sb) ob)) -∗ K ⟨⟩))
      ⊢ wp frame (wpE (defs₀ (F := F)) Variants.none c none) E (cc1_kernel i arg3 harg3 arg4 harg4 arg5 harg5 arg6 harg6 arg7 harg7 arg8 harg8 arg9 harg9 arg10 harg10 arg11 harg11 arg12 harg12) K := by
  simp only [cc1_kernel_eq_skeleton]; unfold cc1_kernel_skel owns
  iintro ⟨⟨%fx, %hfx, Hx⟩, ⟨%fa, %hfa, Ha⟩, ⟨%fb, %hfb, Hb⟩, ⟨%fp, %hfp, Hp⟩, ⟨%fq, %hfq, Hq⟩,
    ⟨%fr, %hfr, Hr⟩, ⟨%fs, %hfs, Hs⟩, ⟨%fo, %hfo, Ho⟩, ⟨%fu, %hfu, Hu⟩, ⟨%fv, %hfv, Hv⟩, Hk⟩
  subst hfx hfa hfb hfp hfq hfr hfs hfo hfu hfv
  by_cases hc0 : cond1_0 i <;> by_cases hc1 : cond1_1 i <;>
  · first | have h0 := eq_false hc0 | have h0 := eq_true hc0
    first | have h1 := eq_false hc1 | have h1 := eq_true hc1
    simp only [h0, h1, if_true, if_false]
    sl_exec (disch := first | exact hc0 | exact hc1)
    sl_step
    iapply Hk
    (isplitl [Hx]; iexists _; isplitr; swap; iexact Hx; swap
     isplitl [Ha]; iexists _; isplitr; swap; iexact Ha; swap
     isplitl [Hb]; iexists _; isplitr; swap; iexact Hb; swap
     isplitl [Hp]; iexists _; isplitr; swap; iexact Hp; swap
     isplitl [Hq]; iexists _; isplitr; swap; iexact Hq; swap
     isplitl [Hr]; iexists _; isplitr; swap; iexact Hr; swap
     isplitl [Hs]; iexists _; isplitr; swap; iexact Hs; swap
     isplitl [Ho]; iexists _; isplitr; swap; iexact Ho; swap
     isplitl [Hu]; iexists _; isplitr; swap; iexact Hu; swap
     iexists _; isplitr; swap; iexact Hv) <;>
    (ipureintro; first | rfl | (sl_unfold_words; rw [read_writes_whole_last _ _ zero_off2]; simp only [View.readAt_eq_ld, readCov_whole_last (S := S1024x1024) _ zero_off2, View.ld_unit_zero (S := S1024x1024) zero_off2, View.ld_unit_zero (S := S1024x1024) zero_off2, View.ld_unit_zero (S := S1x1024) zero_off2]))

end Cert.KernelIdeal.Hand

end
-- ==== Proof.KI.R1Body.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import proofs.«428350_j82789789597763_3_alg».proof.Proof.KI.R1Defs
import proofs.«428350_j82789789597763_3_alg».proof.Proof.KI.R1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- each input block the body is handed is the block of the entry array at that point
theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t)
    ∧ (∀ d, (dat1 V c).before 6 t d = iblk1 V c 6 t) := by
  refine ⟨?_, ?_, ?_, ?_, ?_, ?_, ?_⟩ <;>
  exact fun d => ((dat1 V c).before_in_eq_fetched _ rfl (fun _ => rfl) (fun _ _ _ => rfl) (fun _ => rfl) t d).trans rfl

-- at the contraction's last step the output block is the polynomial of the finished accumulators
theorem leaves1_out (c : Dev nD) (t : Fin cfg1.N) (h : cond1_1 (grid1.coords t)) :
    (dat1 V c).leavesExact 7 t = owns (c : Thread nD τ) (st1_7 t) fullShare (out1 V c t) := by
  unfold Dat.leavesExact
  rw [show cfg1.idle 7 (grid1.coords t) = false from by show (!(_ == 1#1)) = false; rw [Bool.not_eq_false', beq_iff_eq]; exact h, after1_7]

-- off the last step the output block is handed back as found
theorem leaves1_idle (c : Dev nD) (t : Fin cfg1.N) (h : ¬cond1_1 (grid1.coords t)) :
    (dat1 V c).leavesExact 7 t = iprop(∃ d, owns (c : Thread nD τ) (st1_7 t) fullShare ((dat1 V c).before 7 t d)) :=
  Dat.leavesExact_idle (dat1 V c) 7 t (by show (!(_ == 1#1)) = true; rw [Bool.not_eq_true', beq_eq_false_iff_ne]; exact h)
    (by rw [← Bool.not_eq_true]; exact fun hf => h ((hcond1_1 t).mpr ((flush1_7 t).mp hf)))

-- the invariant at any position: both accumulators at some contents, which past the first point are the previous point's
theorem PhiS1_open (c : Dev nD) (n : ℕ) (h : n ≤ cfg1.N) :
    PhiS1 V c n h ⊢ iprop(∃ sa sb, ⌜∀ hn : n ≠ 0, (sa, sb) = acc1 V c (n - 1) (by omega)⌝
      ∗ owns (c : Thread nD τ) scM1_0 fullShare sa ∗ owns (c : Thread nD τ) scM1_1 fullShare sb ∗ rest1 (F := F) c) := by
  cases n with
  | zero =>
    unfold PhiS1; iintro ⟨⟨⟨%sa, Ha⟩, ⟨%sb, Hb⟩⟩, Hr⟩
    iexists sa, sb; isplitr; · ipureintro; exact fun hn => absurd rfl hn
    iframe
  | succ n =>
    unfold PhiS1; iintro ⟨⟨Ha, Hb⟩, Hr⟩
    iexists (acc1 V c n h).1, (acc1 V c n h).2; isplitr; · ipureintro; exact fun _ => rfl
    iframe

-- the accumulators after point t from those before it: restarted exactly where the contraction coordinate is 0
theorem acc1_eq (c : Dev nD) (t : Fin cfg1.N) (sa sb : Vec F S1024x1024 .f32)
    (hs : ∀ hn : t.val ≠ 0, (sa, sb) = acc1 V c (t.val - 1) (by omega)) :
    acc1 V c t.val t.isLt = (k1_pay4 (xb1 V c t) (if cond1_0 (grid1.coords t) then k1_pay1 else sa) (oa1 V c t),
      k1_pay5 (xb1 V c t) (if cond1_0 (grid1.coords t) then k1_pay2 else sb) (ob1 V c t)) := by
  by_cases h0 : t.val % 8 = 0
  · rw [acc1_first V c t h0, if_pos ((hcond1_0 t).mpr h0), if_pos ((hcond1_0 t).mpr h0)]
  · have hc : ¬cond1_0 (grid1.coords t) := fun h => h0 ((hcond1_0 t).mp h)
    rw [acc1_next V c t h0, if_neg hc, if_neg hc, ← hs fun h => h0 (by rw [h])]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop(PhiS1 V c (t.val + 1) t.isLt ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ (dat1 V c).leavesExact 7 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t]
  rw [PhiS1_castSucc V c t, PhiS1_succ]
  iintro ⟨HΦ, Howe, ⟨%dx, HX⟩, ⟨%da, HA⟩, ⟨%db, HB⟩, ⟨%dp, HP⟩, ⟨%dq, HQ⟩, ⟨%dr, HR⟩, ⟨%ds, HS⟩, ⟨%dO, HO⟩⟩
  ihave H := PhiS1_open V c _ _ $$ HΦ
  icases H with ⟨%sa, %sb, %hs, HSa, HSb, Hrest⟩
  rw [acc1_eq V c t sa sb hs]
  iapply (run1 c (grid1.coords t) _ _ _ _ _ _ _ _ _ _ _ _ _ _ _ _ _ _ _ _ (xb1 V c t) (oa1 V c t) (ob1 V c t) (c0b1 V c t) (c1b1 V c t) (c2b1 V c t) (c3b1 V c t) ((dat1 V c).before 7 t dO) sa sb Set.univ _)
  iframe HX HA HB HP HQ HR HS HO HSa HSb
  iintro ⟨HX, HA, HB, HP, HQ, HR, HS, HO, HSa, HSb⟩
  iframe HSa HSb Hrest Howe HX HA HB HP HQ HR HS
  by_cases h1 : cond1_1 (grid1.coords t)
  · rw [leaves1_out V c t h1, if_pos h1]; unfold out1; rw [acc1_eq V c t sa sb hs]; iexact HO
  · rw [leaves1_idle V c t h1, if_neg h1]; iexists _; iexact HO

theorem body_obligation1 (c : Dev nD) : BodyObligation (dat1 (F := F) V c) (defs₀ (F := F)) Variants.none () Set.univ := fun t => by
  rw [bigSep_W1, bigSep_W1]
  exact sound_body1 V c t

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl, PhiA1_eq]
  unfold rest1
  iintro ⟨⟨HS, Hrest⟩, Hg⟩
  iframe

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl, PhiA1_eq]
  iintro H
  ihave H := PhiS1_open V c _ _ $$ H
  icases H with ⟨%sa, %sb, -, HSa, HSb, Hrest, Hg⟩
  iframe Hrest Hg
  isplitl [HSa] <;> iexists _ <;> iassumption

end Cert.KernelIdeal.Hand

end
-- ==== Proof.KI.R2Defs.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S1024x1024 .bf16 := iblk2 V c 0 t
abbrev oa2 (c : Dev nD) (t : Fin cfg2.N) : Vec F S1024x512 .bf16 := iblk2 V c 1 t
abbrev ob2 (c : Dev nD) (t : Fin cfg2.N) : Vec F S1024x512 .bf16 := iblk2 V c 2 t
abbrev c0b2 (c : Dev nD) (t : Fin cfg2.N) : Vec F S1x512 .f32 := iblk2 V c 3 t
abbrev c1b2 (c : Dev nD) (t : Fin cfg2.N) : Vec F S1x512 .f32 := iblk2 V c 4 t
abbrev c2b2 (c : Dev nD) (t : Fin cfg2.N) : Vec F S1x512 .f32 := iblk2 V c 5 t
abbrev c3b2 (c : Dev nD) (t : Fin cfg2.N) : Vec F S1x512 .f32 := iblk2 V c 6 t

abbrev cond2_0 (i : grid2.Coords) : Prop := (Scalar.cmpi .ne (Scalar.extui (Scalar.cmpi .eq (BitVec.ofNat 32 (i 2).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

-- the two accumulators after point n: a sum of products over the contraction steps up to n, restarted where n ≡ 0 (mod 8)
def acc2 (c : Dev nD) : (n : ℕ) → n < cfg2.N → Vec F S1024x512 .f32 × Vec F S1024x512 .f32
  | 0, hn => (k2_pay4 (xb2 V c ⟨0, hn⟩) k2_pay1 (oa2 V c ⟨0, hn⟩), k2_pay5 (xb2 V c ⟨0, hn⟩) k2_pay2 (ob2 V c ⟨0, hn⟩))
  | n + 1, hn =>
    if (n + 1) % 8 = 0 then
      (k2_pay4 (xb2 V c ⟨n + 1, hn⟩) k2_pay1 (oa2 V c ⟨n + 1, hn⟩), k2_pay5 (xb2 V c ⟨n + 1, hn⟩) k2_pay2 (ob2 V c ⟨n + 1, hn⟩))
    else
      (k2_pay4 (xb2 V c ⟨n + 1, hn⟩) (acc2 c n (Nat.lt_of_succ_lt hn)).1 (oa2 V c ⟨n + 1, hn⟩),
       k2_pay5 (xb2 V c ⟨n + 1, hn⟩) (acc2 c n (Nat.lt_of_succ_lt hn)).2 (ob2 V c ⟨n + 1, hn⟩))

theorem acc2_first (c : Dev nD) (t : Fin cfg2.N) (h : t.val % 8 = 0) :
    acc2 V c t.val t.isLt = (k2_pay4 (xb2 V c t) k2_pay1 (oa2 V c t), k2_pay5 (xb2 V c t) k2_pay2 (ob2 V c t)) := by
  obtain ⟨n, hn⟩ := t
  cases n with
  | zero => rfl
  | succ n => exact if_pos h

theorem acc2_next (c : Dev nD) (t : Fin cfg2.N) (h : ¬t.val % 8 = 0) :
    acc2 V c t.val t.isLt = (k2_pay4 (xb2 V c t) (acc2 V c (t.val - 1) (Nat.lt_of_le_of_lt (Nat.sub_le _ _) t.isLt)).1 (oa2 V c t),
      k2_pay5 (xb2 V c t) (acc2 V c (t.val - 1) (Nat.lt_of_le_of_lt (Nat.sub_le _ _) t.isLt)).2 (ob2 V c t)) := by
  obtain ⟨n, hn⟩ := t
  cases n with
  | zero => exact absurd (Nat.zero_mod _) h
  | succ n => exact if_neg h

def out2 (c : Dev nD) (t : Fin cfg2.N) : Vec F S1024x512 .bf16 :=
  k2_pay6 (acc2 V c t.val t.isLt).1 (acc2 V c t.val t.isLt).2 (c0b2 V c t) (c1b2 V c t) (c2b2 V c t) (c3b2 V c t)

abbrev scM2_0 : Memref sig .tc .vmem S1024x512 .f32 := Memref.whole cc2_scratch0
abbrev scM2_1 : Memref sig .tc .vmem S1024x512 .f32 := Memref.whole cc2_scratch1

abbrev rest2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

-- the loop invariant before position n
def PhiS2 (c : Dev nD) : (n : ℕ) → n ≤ cfg2.N → sProp 𝕄
  | 0, _ => iprop(iprop((∃ d, owns (c : Thread nD τ) scM2_0 fullShare d) ∗ (∃ d, owns (c : Thread nD τ) scM2_1 fullShare d)) ∗ rest2 (F := F) c)
  | n + 1, hn => iprop(iprop(owns (c : Thread nD τ) scM2_0 fullShare (acc2 V c n hn).1 ∗ owns (c : Thread nD τ) scM2_1 fullShare (acc2 V c n hn).2) ∗ rest2 (F := F) c)

theorem PhiS2_zero (c : Dev nD) (n : ℕ) (h : n ≤ cfg2.N) (hz : n = 0) :
    PhiS2 V c n h = iprop(iprop((∃ d, owns (c : Thread nD τ) scM2_0 fullShare d) ∗ (∃ d, owns (c : Thread nD τ) scM2_1 fullShare d)) ∗ rest2 (F := F) c) := by
  subst hz; rfl
theorem PhiS2_succ (c : Dev nD) (n : ℕ) (hn : n < cfg2.N) :
    PhiS2 V c (n + 1) hn = iprop(iprop(owns (c : Thread nD τ) scM2_0 fullShare (acc2 V c n hn).1 ∗ owns (c : Thread nD τ) scM2_1 fullShare (acc2 V c n hn).2) ∗ rest2 (F := F) c) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_7 (c : Dev nD) (t : Fin cfg2.N) : (dat2 V c).after 7 t = out2 V c t := by dsimp only [dat2]

end Cert.KernelIdeal.Hand

end
-- ==== Proof.KI.R2Run.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import proofs.«428350_j82789789597763_3_alg».proof.Proof.KI.R2Defs
import proofs.«428350_j82789789597763_3_alg».proof.Proof.KI.R0Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every grid point at once: the accumulators restart at the contraction's first step, the output block is stored at its last
set_option maxHeartbeats 1000000 in
theorem run2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .f32) (harg11 : arg11.IsWhole) (arg12 : Memref sig .tc .vmem S1024x512 .f32) (harg12 : arg12.IsWhole)
    (x : Vec F S1024x1024 .bf16) (oa ob : Vec F S1024x512 .bf16) (k0 k1 k2 k3 : Vec F S1x512 .f32) (o : Vec F S1024x512 .bf16)
    (sa sb : Vec F S1024x512 .f32) (E : Set ℕ) (K : PUnit → sProp 𝕄) :
    iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
        ∗ owns (c : Thread nD τ) arg10 fullShare o ∗ owns (c : Thread nD τ) arg11 fullShare sa ∗ owns (c : Thread nD τ) arg12 fullShare sb
        ∗ (iprop(owns (c : Thread nD τ) arg3 fullShare x ∗ owns (c : Thread nD τ) arg4 fullShare oa ∗ owns (c : Thread nD τ) arg5 fullShare ob ∗ owns (c : Thread nD τ) arg6 fullShare k0 ∗ owns (c : Thread nD τ) arg7 fullShare k1 ∗ owns (c : Thread nD τ) arg8 fullShare k2 ∗ owns (c : Thread nD τ) arg9 fullShare k3
            ∗ owns (c : Thread nD τ) arg10 fullShare (if cond2_1 i then k2_pay6 (k2_pay4 x (if cond2_0 i then k2_pay1 else sa) oa) (k2_pay5 x (if cond2_0 i then k2_pay2 else sb) ob) k0 k1 k2 k3 else o) ∗ owns (c : Thread nD τ) arg11 fullShare (k2_pay4 x (if cond2_0 i then k2_pay1 else sa) oa) ∗ owns (c : Thread nD τ) arg12 fullShare (k2_pay5 x (if cond2_0 i then k2_pay2 else sb) ob)) -∗ K ⟨⟩))
      ⊢ wp frame (wpE (defs₀ (F := F)) Variants.none c none) E (cc2_kernel i arg3 harg3 arg4 harg4 arg5 harg5 arg6 harg6 arg7 harg7 arg8 harg8 arg9 harg9 arg10 harg10 arg11 harg11 arg12 harg12) K := by
  simp only [cc2_kernel_eq_skeleton]; unfold cc2_kernel_skel owns
  iintro ⟨⟨%fx, %hfx, Hx⟩, ⟨%fa, %hfa, Ha⟩, ⟨%fb, %hfb, Hb⟩, ⟨%fp, %hfp, Hp⟩, ⟨%fq, %hfq, Hq⟩,
    ⟨%fr, %hfr, Hr⟩, ⟨%fs, %hfs, Hs⟩, ⟨%fo, %hfo, Ho⟩, ⟨%fu, %hfu, Hu⟩, ⟨%fv, %hfv, Hv⟩, Hk⟩
  subst hfx hfa hfb hfp hfq hfr hfs hfo hfu hfv
  by_cases hc0 : cond2_0 i <;> by_cases hc1 : cond2_1 i <;>
  · first | have h0 := eq_false hc0 | have h0 := eq_true hc0
    first | have h1 := eq_false hc1 | have h1 := eq_true hc1
    simp only [h0, h1, if_true, if_false]
    sl_exec (disch := first | exact hc0 | exact hc1)
    sl_step
    iapply Hk
    (isplitl [Hx]; iexists _; isplitr; swap; iexact Hx; swap
     isplitl [Ha]; iexists _; isplitr; swap; iexact Ha; swap
     isplitl [Hb]; iexists _; isplitr; swap; iexact Hb; swap
     isplitl [Hp]; iexists _; isplitr; swap; iexact Hp; swap
     isplitl [Hq]; iexists _; isplitr; swap; iexact Hq; swap
     isplitl [Hr]; iexists _; isplitr; swap; iexact Hr; swap
     isplitl [Hs]; iexists _; isplitr; swap; iexact Hs; swap
     isplitl [Ho]; iexists _; isplitr; swap; iexact Ho; swap
     isplitl [Hu]; iexists _; isplitr; swap; iexact Hu; swap
     iexists _; isplitr; swap; iexact Hv) <;>
    (ipureintro; first | rfl | (sl_unfold_words; rw [read_writes_whole_last _ _ zero_off2]; simp only [View.readAt_eq_ld, readCov_whole_last (S := S1024x512) _ zero_off2, View.ld_unit_zero (S := S1024x1024) zero_off2, View.ld_unit_zero (S := S1024x512) zero_off2, View.ld_unit_zero (S := S1x512) zero_off2]))

end Cert.KernelIdeal.Hand

end
-- ==== Proof.KI.R2Body.lean ====
import proofs.«428350_j82789789597763_3_alg».proof.Proof.Gen.KernelIdeal.Launch
import proofs.«428350_j82789789597763_3_alg».proof.Proof.Gen.KernelIdeal.Skeleton
import proofs.«428350_j82789789597763_3_alg».proof.Proof.Gen.KernelIdeal.Points
import proofs.«428350_j82789789597763_3_alg».proof.Proof.KI.R2Defs
import proofs.«428350_j82789789597763_3_alg».proof.Proof.KI.R2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- each input block the body is handed is the block of the entry array at that point
theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;>
  exact fun d => ((dat2 V c).before_in_eq_fetched _ rfl (fun _ => rfl) (fun _ _ _ => rfl) (fun _ => rfl) t d).trans rfl

-- at the contraction's last step the output block is the polynomial of the finished accumulators
theorem leaves2_out (c : Dev nD) (t : Fin cfg2.N) (h : cond2_1 (grid2.coords t)) :
    (dat2 V c).leavesExact 7 t = owns (c : Thread nD τ) (st2_7 t) fullShare (out2 V c t) := by
  unfold Dat.leavesExact
  rw [show cfg2.idle 7 (grid2.coords t) = false from by show (!(_ == 1#1)) = false; rw [Bool.not_eq_false', beq_iff_eq]; exact h, after2_7]

-- off the last step the output block is handed back as found
theorem leaves2_idle (c : Dev nD) (t : Fin cfg2.N) (h : ¬cond2_1 (grid2.coords t)) :
    (dat2 V c).leavesExact 7 t = iprop(∃ d, owns (c : Thread nD τ) (st2_7 t) fullShare ((dat2 V c).before 7 t d)) :=
  Dat.leavesExact_idle (dat2 V c) 7 t (by show (!(_ == 1#1)) = true; rw [Bool.not_eq_true', beq_eq_false_iff_ne]; exact h)
    (by rw [← Bool.not_eq_true]; exact fun hf => h ((hcond2_1 t).mpr ((flush2_7 t).mp hf)))

-- the invariant at any position: both accumulators at some contents, which past the first point are the previous point's
theorem PhiS2_open (c : Dev nD) (n : ℕ) (h : n ≤ cfg2.N) :
    PhiS2 V c n h ⊢ iprop(∃ sa sb, ⌜∀ hn : n ≠ 0, (sa, sb) = acc2 V c (n - 1) (by omega)⌝
      ∗ owns (c : Thread nD τ) scM2_0 fullShare sa ∗ owns (c : Thread nD τ) scM2_1 fullShare sb ∗ rest2 (F := F) c) := by
  cases n with
  | zero =>
    unfold PhiS2; iintro ⟨⟨⟨%sa, Ha⟩, ⟨%sb, Hb⟩⟩, Hr⟩
    iexists sa, sb; isplitr; · ipureintro; exact fun hn => absurd rfl hn
    iframe
  | succ n =>
    unfold PhiS2; iintro ⟨⟨Ha, Hb⟩, Hr⟩
    iexists (acc2 V c n h).1, (acc2 V c n h).2; isplitr; · ipureintro; exact fun _ => rfl
    iframe

-- the accumulators after point t from those before it: restarted exactly where the contraction coordinate is 0
theorem acc2_eq (c : Dev nD) (t : Fin cfg2.N) (sa sb : Vec F S1024x512 .f32)
    (hs : ∀ hn : t.val ≠ 0, (sa, sb) = acc2 V c (t.val - 1) (by omega)) :
    acc2 V c t.val t.isLt = (k2_pay4 (xb2 V c t) (if cond2_0 (grid2.coords t) then k2_pay1 else sa) (oa2 V c t),
      k2_pay5 (xb2 V c t) (if cond2_0 (grid2.coords t) then k2_pay2 else sb) (ob2 V c t)) := by
  by_cases h0 : t.val % 8 = 0
  · rw [acc2_first V c t h0, if_pos ((hcond2_0 t).mpr h0), if_pos ((hcond2_0 t).mpr h0)]
  · have hc : ¬cond2_0 (grid2.coords t) := fun h => h0 ((hcond2_0 t).mp h)
    rw [acc2_next V c t h0, if_neg hc, if_neg hc, ← hs fun h => h0 (by rw [h])]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop(PhiS2 V c (t.val + 1) t.isLt ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ (dat2 V c).leavesExact 7 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2 V c t]
  rw [PhiS2_castSucc V c t, PhiS2_succ]
  iintro ⟨HΦ, Howe, ⟨%dx, HX⟩, ⟨%da, HA⟩, ⟨%db, HB⟩, ⟨%dp, HP⟩, ⟨%dq, HQ⟩, ⟨%dr, HR⟩, ⟨%ds, HS⟩, ⟨%dO, HO⟩⟩
  ihave H := PhiS2_open V c _ _ $$ HΦ
  icases H with ⟨%sa, %sb, %hs, HSa, HSb, Hrest⟩
  rw [acc2_eq V c t sa sb hs]
  iapply (run2 c (grid2.coords t) _ _ _ _ _ _ _ _ _ _ _ _ _ _ _ _ _ _ _ _ (xb2 V c t) (oa2 V c t) (ob2 V c t) (c0b2 V c t) (c1b2 V c t) (c2b2 V c t) (c3b2 V c t) ((dat2 V c).before 7 t dO) sa sb Set.univ _)
  iframe HX HA HB HP HQ HR HS HO HSa HSb
  iintro ⟨HX, HA, HB, HP, HQ, HR, HS, HO, HSa, HSb⟩
  iframe HSa HSb Hrest Howe HX HA HB HP HQ HR HS
  by_cases h1 : cond2_1 (grid2.coords t)
  · rw [leaves2_out V c t h1, if_pos h1]; unfold out2; rw [acc2_eq V c t sa sb hs]; iexact HO
  · rw [leaves2_idle V c t h1, if_neg h1]; iexists _; iexact HO

theorem body_obligation2 (c : Dev nD) : BodyObligation (dat2 (F := F) V c) (defs₀ (F := F)) Variants.none () Set.univ := fun t => by
  rw [bigSep_W2, bigSep_W2]
  exact sound_body2 V c t

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl, PhiA2_eq]
  unfold rest2
  iintro ⟨⟨HS, Hrest⟩, Hg⟩
  iframe

theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl, PhiA2_eq]
  iintro H
  ihave H := PhiS2_open V c _ _ $$ H
  icases H with ⟨%sa, %sb, -, HSa, HSb, Hrest, Hg⟩
  iframe Hrest Hg
  isplitl [HSa] <;> iexists _ <;> iassumption

end Cert.KernelIdeal.Hand

end
-- ==== Proof.KI.Regs.lean ====
import proofs.«428350_j82789789597763_3_alg».proof.Proof.Gen.KernelIdeal.Regions
import proofs.«428350_j82789789597763_3_alg».proof.Proof.KI.R0Body
import proofs.«428350_j82789789597763_3_alg».proof.Proof.KI.R1Body
import proofs.«428350_j82789789597763_3_alg».proof.Proof.KI.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Va5 (c : Dev nD) : Valuation τ sig (Elt F) := V5 m c

def o0 (c : Dev nD) : Buf (Elt F) ((c : Thread nD τ).loc main_v61) :=
  (dat0 (fun c b => Va5 m c b) c).arrAt 7 cfg0.N

abbrev Va6 (c : Dev nD) : Valuation τ sig (Elt F) := Function.update (Va5 m c) main_v61 (o0 m c)

abbrev Va11 (c : Dev nD) : Valuation τ sig (Elt F) :=
  StableHlo.after hostOps1_4 (StableHlo.after hostOps1_3 (StableHlo.after hostOps1_2 (StableHlo.after hostOps1_1
    (StableHlo.after hostOps1 (Va6 m c)))))

def o1 (c : Dev nD) : Buf (Elt F) ((c : Thread nD τ).loc main_v86) :=
  (dat1 (fun c b => Va11 m c b) c).arrAt 7 cfg1.N

abbrev Va12 (c : Dev nD) : Valuation τ sig (Elt F) := Function.update (Va11 m c) main_v86 (o1 m c)

abbrev Va17 (c : Dev nD) : Valuation τ sig (Elt F) :=
  StableHlo.after hostOps2_4 (StableHlo.after hostOps2_3 (StableHlo.after hostOps2_2 (StableHlo.after hostOps2_1
    (StableHlo.after hostOps2 (Va12 m c)))))

def o2 (c : Dev nD) : Buf (Elt F) ((c : Thread nD τ).loc main_v111) :=
  (dat2 (fun c b => Va17 m c b) c).arrAt 7 cfg2.N

abbrev Va18 (c : Dev nD) : Valuation τ sig (Elt F) := Function.update (Va17 m c) main_v111 (o2 m c)

abbrev Va19 (c : Dev nD) : Valuation τ sig (Elt F) := StableHlo.after hostOps3 (Va18 m c)

-- the three launches' output arrays, by their position in the program
def outs : Outs (F := F) := fun J r c =>
  match J with
  | 6 => Va6 m c r
  | 12 => Va12 m c r
  | _ => Va18 m c r

theorem outs_6 (r : Ref sig .tc) (c : Dev nD) : outs m 6 r c = Va6 m c r := rfl
theorem outs_12 (r : Ref sig .tc) (c : Dev nD) : outs m 12 r c = Va12 m c r := rfl
theorem outs_18 (r : Ref sig .tc) (c : Dev nD) : outs m 18 r c = Va18 m c r := rfl

theorem hV6 (c : Dev nD) : V6 m (outs m) c = Va6 m c :=
  congrArg (Function.update (V5 m c) (Proc.devRef .tc main_v61))
    ((outs_6 m main_v61 c).trans (Function.update_self _ _ _))
theorem hV11 (c : Dev nD) : V11 m (outs m) c = Va11 m c :=
  congrArg (fun v => StableHlo.after hostOps1_4 (StableHlo.after hostOps1_3 (StableHlo.after hostOps1_2
    (StableHlo.after hostOps1_1 (StableHlo.after hostOps1 v))))) (hV6 m c)
theorem hV12 (c : Dev nD) : V12 m (outs m) c = Va12 m c :=
  (congrArg (Function.update (V11 m (outs m) c) (Proc.devRef .tc main_v86))
    ((outs_12 m main_v86 c).trans (Function.update_self _ _ _))).trans
    (congrArg (fun v => Function.update v (Proc.devRef .tc main_v86) (o1 m c)) (hV11 m c))
theorem hV17 (c : Dev nD) : V17 m (outs m) c = Va17 m c :=
  congrArg (fun v => StableHlo.after hostOps2_4 (StableHlo.after hostOps2_3 (StableHlo.after hostOps2_2
    (StableHlo.after hostOps2_1 (StableHlo.after hostOps2 v))))) (hV12 m c)
theorem hV18 (c : Dev nD) : V18 m (outs m) c = Va18 m c :=
  (congrArg (Function.update (V17 m (outs m) c) (Proc.devRef .tc main_v111))
    ((outs_18 m main_v111 c).trans (Function.update_self _ _ _))).trans
    (congrArg (fun v => Function.update v (Proc.devRef .tc main_v111) (o2 m c)) (hV17 m c))
theorem hV19 (c : Dev nD) : V19 m (outs m) c = Va19 m c :=
  congrArg (fun v => StableHlo.after hostOps3 v) (hV18 m c)

-- every launch's proof data at its entry contents
def pdats : (p : Fin 3) → (c : Dev nD) → Dat τ (Elt F) Unit ℕ (UR sig nD τ) ℕ (cfgs p) c
  | ⟨0, _⟩ => fun c => dat0 (fun c b => Va5 m c b) c
  | ⟨1, _⟩ => fun c => dat1 (fun c b => Va11 m c b) c
  | ⟨2, _⟩ => fun c => dat2 (fun c b => Va17 m c b) c

abbrev ride (c : Dev nD) : sProp 𝕄 :=
  iprop((∃ r, prngReg c r) ∗ ∃ W, owes (c : Thread nD τ) (0 : CellTallies nD τ sig Unit) W)

theorem entry_sort (c : Dev nD) {H A Zr P O Lv : sProp 𝕄} (hsplit : H ⊢ iprop(A ∗ Zr))
    (hP : (BI.emp : sProp 𝕄) ⊢ P)
    (hO : (iprop(∃ W, owes (c : Thread nD τ) (0 : CellTallies nD τ sig Unit) W) : sProp 𝕄) ⊢ O) :
    (iprop(iprop(H ∗ ride (F := F) c) ∗ emp ∗ Lv) : sProp 𝕄)
      ⊢ |={Set.univ}=> iprop(A ∗ P ∗ O ∗ iprop(∃ r, prngReg c r) ∗ Zr) := by
  iintro ⟨⟨Hub, Hp, HO⟩, -, -⟩
  ihave H := hsplit $$ Hub
  icases H with ⟨Ha, Hrest⟩
  imodintro
  iframe Ha Hp Hrest
  isplitr; · iapply hP; iempintro
  iapply hO; iexact HO

theorem exit_sort (c : Dev nD) {H' A Zr O : sProp 𝕄} (hjoin : iprop(A ∗ Zr) ⊢ H')
    (hO : O ⊢ (iprop(∃ W, owes (c : Thread nD τ) (0 : CellTallies nD τ sig Unit) W) : sProp 𝕄)) :
    (iprop(A ∗ O ∗ iprop(∃ r, prngReg c r) ∗ Zr) : sProp 𝕄) ⊢ |={Set.univ}=> iprop(H' ∗ ride (F := F) c) := by
  iintro ⟨Ha, HO, HY, Hrest⟩
  imodintro
  isplitl [Ha Hrest]
  · iapply hjoin; isplitl [Ha] <;> iassumption
  isplitl [HY]; · iexact HY
  iapply hO; iexact HO

theorem toΦA {gr W : Nat} (win : Fin W → Pipeline.WinSpec sig gr) (c : Dev nD) (P : sProp 𝕄) :
    (iprop(iprop(∃ r, prngReg c r) ∗ P ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  iframe

theorem ofΦA {gr W : Nat} (win : Fin W → Pipeline.WinSpec sig gr) (c : Dev nD) :
    (Pipeline.ΦA win c : sProp 𝕄)
      ⊢ iprop(iprop(∃ r, prngReg c r) ∗ emp ∗ Pipeline.scopedRest (Ix := Unit) (Name := ℕ) (U := UR sig nD τ) (Lvl := ℕ) (Val := Elt F) win c) := by
  unfold Pipeline.ΦA
  iintro ⟨Hr, Hp⟩
  iframe

theorem hF0_in (c : Dev nD) (w : Fin cfg0.W) (hin : (cfg0.win w).isOut = false) (hne : Pipeline.arrRef spec0 w ≠ main_v61) :
    (pdats m 0 c).arrAt w cfg0.N = Va6 m c (Pipeline.arrRef spec0 w) :=
  (((dat0 (fun c b => Va5 m c b) c).arrAt_in w hin _).trans (A_eq0 (fun c b => Va5 m c b) c w)).trans
    (Function.update_of_ne (StableHlo.devRef_ne_of_ne hne) _ _).symm

theorem hF0 (c : Dev nD) : ∀ w : Fin cfg0.W, (pdats m 0 c).arrAt w cfg0.N = Va6 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => (Function.update_self (Proc.devRef .tc main_v61) (o0 m c) (Va5 m c)).symm

theorem hrest0 (c : Dev nD) : ∀ b : Ref sig .tc, b ∉ Finset.univ.image (Pipeline.arrRef spec0) → Va6 m c b = Va5 m c b :=
  fun b hb => Function.update_of_ne (StableHlo.devRef_ne_of_ne fun e =>
    hb (Finset.mem_image.mpr ⟨7, Finset.mem_univ _, e.symm⟩)) _ _

theorem owes_in0 (c : Dev nD) :
    (iprop(∃ W, owes (c : Thread nD τ) (0 : CellTallies nD τ sig Unit) W) : sProp 𝕄) ⊢ (pdats m 0 c).owesAt () 0 := by
  unfold Pipeline.Dat.owesAt Pipeline.owesWithin
  iintro ⟨%W, HO⟩; iexists W; isplitr; · ipureintro; exact fun _ _ => Or.inl trivial
  iexact HO

theorem owes_out0 (c : Dev nD) :
    (pdats m 0 c).owesAt () (Fin.last cfg0.N) ⊢ (iprop(∃ W, owes (c : Thread nD τ) (0 : CellTallies nD τ sig Unit) W) : sProp 𝕄) := by
  unfold Pipeline.Dat.owesAt Pipeline.owesWithin
  iintro ⟨%W, -, HO⟩; iexists W; iexact HO

set_option backward.isDefEq.respectTransparency.types false in

def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (fun c b => Va5 m c b) c).loose
  hwaits := Pipeline.hwaits_of_owed_zero _ _ _ _ (fun _ => ∅) (fun _ _ => 0) 0 fun _ _ => rfl
  pre c := iprop(StableHlo.held (c : Thread nD τ) (Pipeline.ucRefs τ sig) (Va5 m c) ∗ ride c)
  post c := iprop(StableHlo.held (c : Thread nD τ) (Pipeline.ucRefs τ sig) (Va6 m c) ∗ ride c)
  X c := iprop(∃ r, prngReg c r)
  Y c := iprop(∃ r, prngReg c r)
  Z c := Pipeline.unscopedRest (Ix := Unit) (Name := ℕ) (U := UR sig nD τ) (Lvl := ℕ) spec0 c (fun b => Va5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Va5 m c b) fun _ => rfl
    rw [Pipeline.unscopedBufs_held] at hsplit
    exact entry_sort c hsplit
      (by unfold Pipeline.prefHeld; rw [show (Finset.univ : Finset (Fin 0)) = ∅ from rfl, BI.bigSep_empty])
      (owes_in0 m c)
  hin c := (toΦA spec0 c _).trans (hin0 (fun c b => Va5 m c b) c)
  hout c := by
    rw [Pipeline.ownSems0_none]
    exact (hout0 (fun c b => Va5 m c b) c).trans (ofΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Va5 m c b) (fun b => Va6 m c b) ((pdats m 0 c).arrAt · cfg0.N) (hF0 m c) (hrest0 m c)
    rw [Pipeline.unscopedBufs_held] at hjoin
    exact exit_sort c hjoin (owes_out0 m c)

theorem hF1_in (c : Dev nD) (w : Fin cfg1.W) (hin : (cfg1.win w).isOut = false) (hne : Pipeline.arrRef spec1 w ≠ main_v86) :
    (pdats m 1 c).arrAt w cfg1.N = Va12 m c (Pipeline.arrRef spec1 w) :=
  (((dat1 (fun c b => Va11 m c b) c).arrAt_in w hin _).trans (A_eq1 (fun c b => Va11 m c b) c w)).trans
    (Function.update_of_ne (StableHlo.devRef_ne_of_ne hne) _ _).symm

theorem hF1 (c : Dev nD) : ∀ w : Fin cfg1.W, (pdats m 1 c).arrAt w cfg1.N = Va12 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => (Function.update_self (Proc.devRef .tc main_v86) (o1 m c) (Va11 m c)).symm

theorem hrest1 (c : Dev nD) : ∀ b : Ref sig .tc, b ∉ Finset.univ.image (Pipeline.arrRef spec1) → Va12 m c b = Va11 m c b :=
  fun b hb => Function.update_of_ne (StableHlo.devRef_ne_of_ne fun e =>
    hb (Finset.mem_image.mpr ⟨7, Finset.mem_univ _, e.symm⟩)) _ _

theorem owes_in1 (c : Dev nD) :
    (iprop(∃ W, owes (c : Thread nD τ) (0 : CellTallies nD τ sig Unit) W) : sProp 𝕄) ⊢ (pdats m 1 c).owesAt () 0 := by
  unfold Pipeline.Dat.owesAt Pipeline.owesWithin
  iintro ⟨%W, HO⟩; iexists W; isplitr; · ipureintro; exact fun _ _ => Or.inl trivial
  iexact HO

theorem owes_out1 (c : Dev nD) :
    (pdats m 1 c).owesAt () (Fin.last cfg1.N) ⊢ (iprop(∃ W, owes (c : Thread nD τ) (0 : CellTallies nD τ sig Unit) W) : sProp 𝕄) := by
  unfold Pipeline.Dat.owesAt Pipeline.owesWithin
  iintro ⟨%W, -, HO⟩; iexists W; iexact HO

set_option backward.isDefEq.respectTransparency.types false in

def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (fun c b => Va11 m c b) c).loose
  hwaits := Pipeline.hwaits_of_owed_zero _ _ _ _ (fun _ => ∅) (fun _ _ => 0) 1 fun _ _ => rfl
  pre c := iprop(StableHlo.held (c : Thread nD τ) (Pipeline.ucRefs τ sig) (Va11 m c) ∗ ride c)
  post c := iprop(StableHlo.held (c : Thread nD τ) (Pipeline.ucRefs τ sig) (Va12 m c) ∗ ride c)
  X c := iprop(∃ r, prngReg c r)
  Y c := iprop(∃ r, prngReg c r)
  Z c := Pipeline.unscopedRest (Ix := Unit) (Name := ℕ) (U := UR sig nD τ) (Lvl := ℕ) spec1 c (fun b => Va11 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Va11 m c b) fun _ => rfl
    rw [Pipeline.unscopedBufs_held] at hsplit
    exact entry_sort c hsplit
      (by unfold Pipeline.prefHeld; rw [show (Finset.univ : Finset (Fin 0)) = ∅ from rfl, BI.bigSep_empty])
      (owes_in1 m c)
  hin c := (toΦA spec1 c _).trans (hin1 (fun c b => Va11 m c b) c)
  hout c := by
    rw [Pipeline.ownSems0_none]
    exact (hout1 (fun c b => Va11 m c b) c).trans (ofΦA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Va11 m c b) (fun b => Va12 m c b) ((pdats m 1 c).arrAt · cfg1.N) (hF1 m c) (hrest1 m c)
    rw [Pipeline.unscopedBufs_held] at hjoin
    exact exit_sort c hjoin (owes_out1 m c)

theorem hF2_in (c : Dev nD) (w : Fin cfg2.W) (hin : (cfg2.win w).isOut = false) (hne : Pipeline.arrRef spec2 w ≠ main_v111) :
    (pdats m 2 c).arrAt w cfg2.N = Va18 m c (Pipeline.arrRef spec2 w) :=
  (((dat2 (fun c b => Va17 m c b) c).arrAt_in w hin _).trans (A_eq2 (fun c b => Va17 m c b) c w)).trans
    (Function.update_of_ne (StableHlo.devRef_ne_of_ne hne) _ _).symm

theorem hF2 (c : Dev nD) : ∀ w : Fin cfg2.W, (pdats m 2 c).arrAt w cfg2.N = Va18 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => (Function.update_self (Proc.devRef .tc main_v111) (o2 m c) (Va17 m c)).symm

theorem hrest2 (c : Dev nD) : ∀ b : Ref sig .tc, b ∉ Finset.univ.image (Pipeline.arrRef spec2) → Va18 m c b = Va17 m c b :=
  fun b hb => Function.update_of_ne (StableHlo.devRef_ne_of_ne fun e =>
    hb (Finset.mem_image.mpr ⟨7, Finset.mem_univ _, e.symm⟩)) _ _

theorem owes_in2 (c : Dev nD) :
    (iprop(∃ W, owes (c : Thread nD τ) (0 : CellTallies nD τ sig Unit) W) : sProp 𝕄) ⊢ (pdats m 2 c).owesAt () 0 := by
  unfold Pipeline.Dat.owesAt Pipeline.owesWithin
  iintro ⟨%W, HO⟩; iexists W; isplitr; · ipureintro; exact fun _ _ => Or.inl trivial
  iexact HO

theorem owes_out2 (c : Dev nD) :
    (pdats m 2 c).owesAt () (Fin.last cfg2.N) ⊢ (iprop(∃ W, owes (c : Thread nD τ) (0 : CellTallies nD τ sig Unit) W) : sProp 𝕄) := by
  unfold Pipeline.Dat.owesAt Pipeline.owesWithin
  iintro ⟨%W, -, HO⟩; iexists W; iexact HO

set_option backward.isDefEq.respectTransparency.types false in

def reg2 : Pipeline.RegionSeg (pcfgs (F := F)) adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (fun c b => Va17 m c b) c).loose
  hwaits := Pipeline.hwaits_of_owed_zero _ _ _ _ (fun _ => ∅) (fun _ _ => 0) 2 fun _ _ => rfl
  pre c := iprop(StableHlo.held (c : Thread nD τ) (Pipeline.ucRefs τ sig) (Va17 m c) ∗ ride c)
  post c := iprop(StableHlo.held (c : Thread nD τ) (Pipeline.ucRefs τ sig) (Va18 m c) ∗ ride c)
  X c := iprop(∃ r, prngReg c r)
  Y c := iprop(∃ r, prngReg c r)
  Z c := Pipeline.unscopedRest (Ix := Unit) (Name := ℕ) (U := UR sig nD τ) (Lvl := ℕ) spec2 c (fun b => Va17 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => Va17 m c b) fun _ => rfl
    rw [Pipeline.unscopedBufs_held] at hsplit
    exact entry_sort c hsplit
      (by unfold Pipeline.prefHeld; rw [show (Finset.univ : Finset (Fin 0)) = ∅ from rfl, BI.bigSep_empty])
      (owes_in2 m c)
  hin c := (toΦA spec2 c _).trans (hin2 (fun c b => Va17 m c b) c)
  hout c := by
    rw [Pipeline.ownSems0_none]
    exact (hout2 (fun c b => Va17 m c b) c).trans (ofΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => Va17 m c b) (fun b => Va18 m c b) ((pdats m 2 c).arrAt · cfg2.N) (hF2 m c) (hrest2 m c)
    rw [Pipeline.unscopedBufs_held] at hjoin
    exact exit_sort c hjoin (owes_out2 m c)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ∗ levAts (fun _ : GSem nD τ sig => (∅ : Finset Unit)) (fun _ _ => (0 : ℕ))) : sProp 𝕄)
    ⊢ |={Set.univ}=> bigSep Finset.univ (fun c : Dev nD => ride (F := F) c) :=
  Pipeline.initEach _ _ fun c => by
    iintro ⟨⟨-, HO, -, Hp, -⟩, -⟩
    imodintro
    isplitl [Hp]; · iexists _; iexact Hp
    iexists ∅; iexact HO

theorem hE3 (c : Dev nD) : ride (F := F) c
    ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () Variants.none (fun _ => ∅) (fun _ _ => 0) (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) hu₀
    (fun _ c => ride c) (hE0 ρ) hE3
    (reg0 m) (fun c => .rfl) (fun c => by rw [hV6]; exact .rfl)
    (reg1 m) (fun c => by rw [hV11]; exact .rfl) (fun c => by rw [hV12]; exact .rfl)
    (reg2 m) (fun c => by rw [hV17]; exact .rfl) (fun c => by rw [hV18]; exact .rfl)

end Cert.KernelIdeal.Hand

end
-- ==== Proof.KI.RunAll.lean ====
import proofs.«428350_j82789789597763_3_alg».proof.Proof.KI.Regs
import proofs.«428350_j82789789597763_3_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the program's run with the result buffer named: the conditional run at the three launch records
theorem run_all : θ_run defs (onTc (τ := τ) (main (F := F))) ⟨m, fun _ => 0, ρ⟩ (fun r => ∀ c : Dev nD,
      r.2.mem ((c.tc : Thread nD τ).loc main_v116) = Va19 m c main_v116
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (congrFun (hV19 m c) _), (h c).2⟩)
    (run_cond m emb₁ () Variants.none (fun _ => ∅) (fun _ _ => 0) (fun _ _ => rfl) ρ (outs m) (pdats m)
      (0 : Dev nD → CellTallies nD τ sig Unit) (fun _ => (BI.emp : sProp 𝕄))
      (initOf (Pipeline.cells cfgs cellOf_inj) (Pipeline.launchToks cfgs cellOf_inj)) hu₀
      (fun _ c => ride c) (hE0 ρ) hE3
      (reg0 m) (fun c => .rfl) (fun c => by rw [hV6]; exact .rfl)
      (reg1 m) (fun c => by rw [hV11]; exact .rfl) (fun c => by rw [hV12]; exact .rfl)
      (reg2 m) (fun c => by rw [hV17]; exact .rfl) (fun c => by rw [hV18]; exact .rfl))

end Cert.KernelIdeal.Hand

end
-- ==== Proof.Ref.Run.lean ====
import proofs.«428350_j82789789597763_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_cst (fun i => FloatOps.ofBits .f32 (lit0 (S16x4.rowMajor i))),
    nullary main_cst_0 (constant S_ .f32 0xFF800000#32),
    binary main_arg1 main_cst_0 main_v0 (fun x v => Host.reduce FloatOps.maximumf x v reducesTo_S8192x16_S8192_d1 h_S_),
    nullary main_cst_1 (constant S_ .f32 0xFF800000#32),
    unary main_cst_1 main_v1 (broadcastInDim S8192 ![] bcast_S_S8192),
    binary main_v1 main_v0 main_v2 maximumf,
    unary main_v2 main_v3 (broadcastInDim S8192x1 ![0] bcast_S8192_S8192x1_0),
    unary main_v3 main_v4 (broadcastInDim S8192x16 ![0, 1] bcast_S8192x1_S8192x16_0_1),
    binary main_arg1 main_v4 main_v5 subf,
    unary main_v5 main_v6 Host.exp,
    nullary main_cst_2 (constant S_ .f32 0x00000000#32),
    binary main_v6 main_cst_2 main_v7 (fun x v => Host.reduceAdd x v reducesTo_S8192x16_S8192_d1 h_S_),
    unary main_v7 main_v8 (broadcastInDim S8192x1 ![0] bcast_S8192_S8192x1_0),
    unary main_v8 main_v9 (broadcastInDim S8192x16 ![0, 1] bcast_S8192x1_S8192x16_0_1),
    binary main_v6 main_v9 main_v10 Host.divf,
    binary main_v10 main_cst main_v11 (Host.dotGeneral dot_S8192x16_S16x4_S8192x4_1_0_0_1_n_n none),
    nullary main_c (constantI S_ 32 0#32),
    unary main_c main_v12 (broadcastInDim S8192 ![] bcast_S_S8192),
    binary main_arg4 main_v12 main_v13 (cmpi .slt),
    nullary main_c_3 (constantI S_ 32 1024#32),
    unary main_c_3 main_v14 (broadcastInDim S8192 ![] bcast_S_S8192),
    binary main_arg4 main_v14 main_v15 addi,
    ternary main_v13 main_v15 main_arg4 main_v16 select,
    unary main_v16 main_v17 (broadcastInDim S8192x1 ![0] bcast_S8192_S8192x1_0),
    binary main_arg0 main_v17 main_v18 (Host.gather gather_S4096x1024_S8192x1_S4096x8192_0_1_n_n_1_1_40961),
    nullary main_c_4 (constantI S_ 32 0#32),
    unary main_c_4 main_v19 (broadcastInDim S8192 ![] bcast_S_S8192),
    binary main_arg5 main_v19 main_v20 (cmpi .slt),
    nullary main_c_5 (constantI S_ 32 1024#32),
    unary main_c_5 main_v21 (broadcastInDim S8192 ![] bcast_S_S8192),
    binary main_arg5 main_v21 main_v22 addi,
    ternary main_v20 main_v22 main_arg5 main_v23 select,
    unary main_v23 main_v24 (broadcastInDim S8192x1 ![0] bcast_S8192_S8192x1_0),
    binary main_arg0 main_v24 main_v25 (Host.gather gather_S4096x1024_S8192x1_S4096x8192_0_1_n_n_1_1_40961),
    unary main_v11 main_v26 (extractStridedSlice S8192x1 ![0, 0] · slices_S8192x4_S8192x1_0_0),
    reshape main_v26 main_v27 rfl shapeCasts_S8192x1_S8192,
    unary main_v11 main_v28 (extractStridedSlice S8192x1 ![0, 1] · slices_S8192x4_S8192x1_0_1),
    reshape main_v28 main_v29 rfl shapeCasts_S8192x1_S8192,
    unary main_v29 main_v30 (broadcastInDim S1x8192 ![1] bcast_S8192_S1x8192_1),
    unary main_v30 main_v31 (broadcastInDim S4096x8192 ![0, 1] bcast_S1x8192_S4096x8192_0_1),
    binary main_v31 main_v18 main_v32 mulf,
    unary main_v27 main_v33 (broadcastInDim S1x8192 ![1] bcast_S8192_S1x8192_1),
    unary main_v33 main_v34 (broadcastInDim S4096x8192 ![0, 1] bcast_S1x8192_S4096x8192_0_1),
    binary main_v34 main_v32 main_v35 addf,
    unary main_v11 main_v36 (extractStridedSlice S8192x1 ![0, 2] · slices_S8192x4_S8192x1_0_2),
    reshape main_v36 main_v37 rfl shapeCasts_S8192x1_S8192,
    unary main_v37 main_v38 (broadcastInDim S1x8192 ![1] bcast_S8192_S1x8192_1),
    unary main_v38 main_v39 (broadcastInDim S4096x8192 ![0, 1] bcast_S1x8192_S4096x8192_0_1),
    binary main_v39 main_v25 main_v40 mulf,
    binary main_v35 main_v40 main_v41 addf,
    unary main_v11 main_v42 (extractStridedSlice S8192x1 ![0, 3] · slices_S8192x4_S8192x1_0_3),
    reshape main_v42 main_v43 rfl shapeCasts_S8192x1_S8192,
    binary main_v18 main_v25 main_v44 mulf,
    unary main_v43 main_v45 (broadcastInDim S1x8192 ![1] bcast_S8192_S1x8192_1),
    unary main_v45 main_v46 (broadcastInDim S4096x8192 ![0, 1] bcast_S1x8192_S4096x8192_0_1),
    binary main_v46 main_v44 main_v47 mulf,
    binary main_v41 main_v47 main_v48 addf,
    nullary main_cst_6 (constant S_ .f32 0xFF800000#32),
    binary main_arg2 main_cst_6 main_v49 (fun x v => Host.reduce FloatOps.maximumf x v reducesTo_S8192x16_S8192_d1 h_S_),
    nullary main_cst_7 (constant S_ .f32 0xFF800000#32) ]

abbrev ops1 : List (HloOp τ sig (Elt F)) :=
  [ unary main_cst_7 main_v50 (broadcastInDim S8192 ![] bcast_S_S8192),
    binary main_v50 main_v49 main_v51 maximumf,
    unary main_v51 main_v52 (broadcastInDim S8192x1 ![0] bcast_S8192_S8192x1_0),
    unary main_v52 main_v53 (broadcastInDim S8192x16 ![0, 1] bcast_S8192x1_S8192x16_0_1),
    binary main_arg2 main_v53 main_v54 subf,
    unary main_v54 main_v55 Host.exp,
    nullary main_cst_8 (constant S_ .f32 0x00000000#32),
    binary main_v55 main_cst_8 main_v56 (fun x v => Host.reduceAdd x v reducesTo_S8192x16_S8192_d1 h_S_),
    unary main_v56 main_v57 (broadcastInDim S8192x1 ![0] bcast_S8192_S8192x1_0),
    unary main_v57 main_v58 (broadcastInDim S8192x16 ![0, 1] bcast_S8192x1_S8192x16_0_1),
    binary main_v55 main_v58 main_v59 Host.divf,
    binary main_v59 main_cst main_v60 (Host.dotGeneral dot_S8192x16_S16x4_S8192x4_1_0_0_1_n_n none),
    nullary main_c_9 (constantI S_ 32 0#32),
    unary main_c_9 main_v61 (broadcastInDim S8192 ![] bcast_S_S8192),
    binary main_arg6 main_v61 main_v62 (cmpi .slt),
    nullary main_c_10 (constantI S_ 32 8192#32),
    unary main_c_10 main_v63 (broadcastInDim S8192 ![] bcast_S_S8192),
    binary main_arg6 main_v63 main_v64 addi,
    ternary main_v62 main_v64 main_arg6 main_v65 select,
    unary main_v65 main_v66 (broadcastInDim S8192x1 ![0] bcast_S8192_S8192x1_0),
    binary main_v48 main_v66 main_v67 (Host.gather gather_S4096x8192_S8192x1_S4096x8192_0_1_n_n_1_1_40961),
    nullary main_c_11 (constantI S_ 32 0#32),
    unary main_c_11 main_v68 (broadcastInDim S8192 ![] bcast_S_S8192),
    binary main_arg7 main_v68 main_v69 (cmpi .slt),
    nullary main_c_12 (constantI S_ 32 8192#32),
    unary main_c_12 main_v70 (broadcastInDim S8192 ![] bcast_S_S8192),
    binary main_arg7 main_v70 main_v71 addi,
    ternary main_v69 main_v71 main_arg7 main_v72 select,
    unary main_v72 main_v73 (broadcastInDim S8192x1 ![0] bcast_S8192_S8192x1_0),
    binary main_v48 main_v73 main_v74 (Host.gather gather_S4096x8192_S8192x1_S4096x8192_0_1_n_n_1_1_40961),
    unary main_v60 main_v75 (extractStridedSlice S8192x1 ![0, 0] · slices_S8192x4_S8192x1_0_0),
    reshape main_v75 main_v76 rfl shapeCasts_S8192x1_S8192,
    unary main_v60 main_v77 (extractStridedSlice S8192x1 ![0, 1] · slices_S8192x4_S8192x1_0_1),
    reshape main_v77 main_v78 rfl shapeCasts_S8192x1_S8192,
    unary main_v78 main_v79 (broadcastInDim S1x8192 ![1] bcast_S8192_S1x8192_1),
    unary main_v79 main_v80 (broadcastInDim S4096x8192 ![0, 1] bcast_S1x8192_S4096x8192_0_1),
    binary main_v80 main_v67 main_v81 mulf,
    unary main_v76 main_v82 (broadcastInDim S1x8192 ![1] bcast_S8192_S1x8192_1),
    unary main_v82 main_v83 (broadcastInDim S4096x8192 ![0, 1] bcast_S1x8192_S4096x8192_0_1),
    binary main_v83 main_v81 main_v84 addf,
    unary main_v60 main_v85 (extractStridedSlice S8192x1 ![0, 2] · slices_S8192x4_S8192x1_0_2),
    reshape main_v85 main_v86 rfl shapeCasts_S8192x1_S8192,
    unary main_v86 main_v87 (broadcastInDim S1x8192 ![1] bcast_S8192_S1x8192_1),
    unary main_v87 main_v88 (broadcastInDim S4096x8192 ![0, 1] bcast_S1x8192_S4096x8192_0_1),
    binary main_v88 main_v74 main_v89 mulf,
    binary main_v84 main_v89 main_v90 addf,
    unary main_v60 main_v91 (extractStridedSlice S8192x1 ![0, 3] · slices_S8192x4_S8192x1_0_3),
    reshape main_v91 main_v92 rfl shapeCasts_S8192x1_S8192,
    binary main_v67 main_v74 main_v93 mulf,
    unary main_v92 main_v94 (broadcastInDim S1x8192 ![1] bcast_S8192_S1x8192_1),
    unary main_v94 main_v95 (broadcastInDim S4096x8192 ![0, 1] bcast_S1x8192_S4096x8192_0_1),
    binary main_v95 main_v93 main_v96 mulf,
    binary main_v90 main_v96 main_v97 addf,
    nullary main_cst_13 (constant S_ .f32 0xFF800000#32),
    binary main_arg3 main_cst_13 main_v98 (fun x v => Host.reduce FloatOps.maximumf x v reducesTo_S10240x16_S10240_d1 h_S_),
    nullary main_cst_14 (constant S_ .f32 0xFF800000#32),
    unary main_cst_14 main_v99 (broadcastInDim S10240 ![] bcast_S_S10240),
    binary main_v99 main_v98 main_v100 maximumf,
    unary main_v100 main_v101 (broadcastInDim S10240x1 ![0] bcast_S10240_S10240x1_0),
    unary main_v101 main_v102 (broadcastInDim S10240x16 ![0, 1] bcast_S10240x1_S10240x16_0_1) ]

abbrev ops2 : List (HloOp τ sig (Elt F)) :=
  [ binary main_arg3 main_v102 main_v103 subf,
    unary main_v103 main_v104 Host.exp,
    nullary main_cst_15 (constant S_ .f32 0x00000000#32),
    binary main_v104 main_cst_15 main_v105 (fun x v => Host.reduceAdd x v reducesTo_S10240x16_S10240_d1 h_S_),
    unary main_v105 main_v106 (broadcastInDim S10240x1 ![0] bcast_S10240_S10240x1_0),
    unary main_v106 main_v107 (broadcastInDim S10240x16 ![0, 1] bcast_S10240x1_S10240x16_0_1),
    binary main_v104 main_v107 main_v108 Host.divf,
    binary main_v108 main_cst main_v109 (Host.dotGeneral dot_S10240x16_S16x4_S10240x4_1_0_0_1_n_n none),
    nullary main_c_16 (constantI S_ 32 0#32),
    unary main_c_16 main_v110 (broadcastInDim S10240 ![] bcast_S_S10240),
    binary main_arg8 main_v110 main_v111 (cmpi .slt),
    nullary main_c_17 (constantI S_ 32 8192#32),
    unary main_c_17 main_v112 (broadcastInDim S10240 ![] bcast_S_S10240),
    binary main_arg8 main_v112 main_v113 addi,
    ternary main_v111 main_v113 main_arg8 main_v114 select,
    unary main_v114 main_v115 (broadcastInDim S10240x1 ![0] bcast_S10240_S10240x1_0),
    binary main_v97 main_v115 main_v116 (Host.gather gather_S4096x8192_S10240x1_S4096x10240_0_1_n_n_1_1_40961),
    nullary main_c_18 (constantI S_ 32 0#32),
    unary main_c_18 main_v117 (broadcastInDim S10240 ![] bcast_S_S10240),
    binary main_arg9 main_v117 main_v118 (cmpi .slt),
    nullary main_c_19 (constantI S_ 32 8192#32),
    unary main_c_19 main_v119 (broadcastInDim S10240 ![] bcast_S_S10240),
    binary main_arg9 main_v119 main_v120 addi,
    ternary main_v118 main_v120 main_arg9 main_v121 select,
    unary main_v121 main_v122 (broadcastInDim S10240x1 ![0] bcast_S10240_S10240x1_0),
    binary main_v97 main_v122 main_v123 (Host.gather gather_S4096x8192_S10240x1_S4096x10240_0_1_n_n_1_1_40961),
    unary main_v109 main_v124 (extractStridedSlice S10240x1 ![0, 0] · slices_S10240x4_S10240x1_0_0),
    reshape main_v124 main_v125 rfl shapeCasts_S10240x1_S10240,
    unary main_v109 main_v126 (extractStridedSlice S10240x1 ![0, 1] · slices_S10240x4_S10240x1_0_1),
    reshape main_v126 main_v127 rfl shapeCasts_S10240x1_S10240,
    unary main_v127 main_v128 (broadcastInDim S1x10240 ![1] bcast_S10240_S1x10240_1),
    unary main_v128 main_v129 (broadcastInDim S4096x10240 ![0, 1] bcast_S1x10240_S4096x10240_0_1),
    binary main_v129 main_v116 main_v130 mulf,
    unary main_v125 main_v131 (broadcastInDim S1x10240 ![1] bcast_S10240_S1x10240_1),
    unary main_v131 main_v132 (broadcastInDim S4096x10240 ![0, 1] bcast_S1x10240_S4096x10240_0_1),
    binary main_v132 main_v130 main_v133 addf,
    unary main_v109 main_v134 (extractStridedSlice S10240x1 ![0, 2] · slices_S10240x4_S10240x1_0_2),
    reshape main_v134 main_v135 rfl shapeCasts_S10240x1_S10240,
    unary main_v135 main_v136 (broadcastInDim S1x10240 ![1] bcast_S10240_S1x10240_1),
    unary main_v136 main_v137 (broadcastInDim S4096x10240 ![0, 1] bcast_S1x10240_S4096x10240_0_1),
    binary main_v137 main_v123 main_v138 mulf,
    binary main_v133 main_v138 main_v139 addf,
    unary main_v109 main_v140 (extractStridedSlice S10240x1 ![0, 3] · slices_S10240x4_S10240x1_0_3),
    reshape main_v140 main_v141 rfl shapeCasts_S10240x1_S10240,
    binary main_v116 main_v123 main_v142 mulf,
    unary main_v141 main_v143 (broadcastInDim S1x10240 ![1] bcast_S10240_S1x10240_1),
    unary main_v143 main_v144 (broadcastInDim S4096x10240 ![0, 1] bcast_S1x10240_S4096x10240_0_1),
    binary main_v144 main_v142 main_v145 mulf,
    binary main_v139 main_v145 main_v146 addf,
    reshape main_v146 main_v147 rfl shapeCasts_S4096x10240_S4096x10x1024,
    nullary main_cst_20 (constant S_ .f32 0x00000000#32),
    binary main_v147 main_cst_20 main_v148 (fun x v => Host.reduceAdd x v reducesTo_S4096x10x1024_S4096x10_d2 h_S_),
    nullary main_cst_21 (constant S_ .f32 0x41F00000#32),
    unary main_cst_21 main_v149 (broadcastInDim S4096x10 ![] bcast_S_S4096x10),
    binary main_v148 main_v149 main_v150 Host.divf ]

abbrev ops : List (HloOp τ sig (Elt F)) := ops0 ++ (ops1 ++ ops2)

abbrev W (m : (ℓ : Loc nD τ sig) → Buf (Elt F) ℓ) (c : Dev nD) : Valuation τ sig (Elt F) :=
  StableHlo.after ops (fun b => m (c, b))

set_option maxRecDepth 8192 in
set_option maxHeartbeats 1000000 in
theorem main_eq (c : Dev nD) : main (F := F) c = seq ops := by
  simp only [ops, seq_append]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig := by
  simp only [ops, List.forall_append, List.forall_cons, List.Forall, nullary_bufs_sub, unary_bufs_sub, binary_bufs_sub,
    ternary_bufs_sub, reshape_bufs_sub, and_self]

/-- Two references with different indices are different. -/
theorem ne_of_idx {r y : Ref sig .tc} {n : Nat} (h : r.idx.val < n) (hy : n ≤ y.idx.val) : r ≠ y :=
  fun e => by subst e; omega

/-- Operation k writes reference 10 + k only: each of the three lists leaves every reference below its first result as it was. -/
theorem keep (V : Valuation τ sig (Elt F)) (r : Ref sig .tc) :
    (r.idx.val < 10 → after ops0 V (Proc.devRef .tc r) = V (Proc.devRef .tc r))
    ∧ (r.idx.val < 70 → after ops1 V (Proc.devRef .tc r) = V (Proc.devRef .tc r))
    ∧ (r.idx.val < 130 → after ops2 V (Proc.devRef .tc r) = V (Proc.devRef .tc r)) := by
  refine ⟨fun h => ?_, fun h => ?_, fun h => ?_⟩ <;>
    simp (disch := exact ne_of_idx h (by decide)) only [after_cons, after_nil, nullary_result_ne', unary_result_ne',
      binary_result_ne', ternary_result_ne', reshape_result_ne']

theorem keep_arg (V : Valuation τ sig (Elt F)) (r : Ref sig .tc) (h : r.idx.val < 10) :
    after ops V (Proc.devRef .tc r) = V (Proc.devRef .tc r) :=
  (congrFun (after_append ops0 (ops1 ++ ops2) V) _).trans <| (congrFun (after_append ops1 ops2 _) _).trans <|
    ((keep _ r).2.2 (by omega)).trans <| ((keep _ r).2.1 (by omega)).trans ((keep V r).1 h)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v150) = W m c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun s h c =>
      have k (r : Ref sig .tc) (hr : r.idx.val < 10) : s.2.mem ((c.tc : Thread nD τ).loc r) = m ((c.tc : Thread nD τ).loc r) :=
        (h c r).trans (keep_arg (launchContents m c) r hr)
      ⟨h c main_v150, k main_arg0 (by decide), k main_arg1 (by decide), k main_arg2 (by decide), k main_arg3 (by decide),
        k main_arg4 (by decide), k main_arg5 (by decide), k main_arg6 (by decide), k main_arg7 (by decide),
        k main_arg8 (by decide), k main_arg9 (by decide)⟩)
    (run_seq scopedRefs_eq scopedSems_eq defs main (fun _ => ops) main_eq (fun _ => ops_sub) m ρ)

end Cert.ReferenceIdeal.Hand

end
-- ==== Proof.Spec.lean ====
import Idealize.ShloMosaic.Lib.ValueIdx

-- One logic layer in two forms: by products with selector matrices, and by picking two columns; `poly` is the mixing polynomial.

noncomputable section

open scoped BigOperators

namespace Cert.Spec

open Idealize.ShloMosaic Idealize.ShloMosaic.ValueIdx

def poly (c0 c1 c2 c3 a b : EReal) : EReal := c0 + c1 * a + c2 * b + c3 * (a * b)

def layerMM (B Din Dout : ℕ) (x : (⟨2, ![B, Din]⟩ : Shape).Idx → EReal)
    (oa ob : (⟨2, ![Din, Dout]⟩ : Shape).Idx → EReal) (c0 c1 c2 c3 : (⟨2, ![1, Dout]⟩ : Shape).Idx → EReal) :
    (⟨2, ![B, Dout]⟩ : Shape).Idx → EReal :=
  fun i => poly (c0 (ix2 (n0 := 1) (n1 := Dout) 0 (i 1))) (c1 (ix2 (n0 := 1) (n1 := Dout) 0 (i 1)))
    (c2 (ix2 (n0 := 1) (n1 := Dout) 0 (i 1))) (c3 (ix2 (n0 := 1) (n1 := Dout) 0 (i 1)))
    (∑ k : Fin Din, x (ix2 (n0 := B) (n1 := Din) (i 0) k) * oa (ix2 (n0 := Din) (n1 := Dout) k (i 1)))
    (∑ k : Fin Din, x (ix2 (n0 := B) (n1 := Din) (i 0) k) * ob (ix2 (n0 := Din) (n1 := Dout) k (i 1)))

def col (Din : ℕ) (hD : 0 < Din) (w : BitVec 32) : Fin Din := ⟨min w.toInt.toNat (Din - 1), by omega⟩

def layerG (B Din Dout : ℕ) (hD : 0 < Din) (x : (⟨2, ![B, Din]⟩ : Shape).Idx → EReal)
    (coef : (⟨2, ![Dout, 4]⟩ : Shape).Idx → EReal) (ia ib : (⟨1, ![Dout]⟩ : Shape).Idx → BitVec 32) :
    (⟨2, ![B, Dout]⟩ : Shape).Idx → EReal :=
  fun i => poly (coef (ix2 (n0 := Dout) (n1 := 4) (i 1) 0)) (coef (ix2 (n0 := Dout) (n1 := 4) (i 1) 1))
    (coef (ix2 (n0 := Dout) (n1 := 4) (i 1) 2)) (coef (ix2 (n0 := Dout) (n1 := 4) (i 1) 3))
    (x (ix2 (n0 := B) (n1 := Din) (i 0) (col Din hD (ia (ix1 (n := Dout) (i 1))))))
    (x (ix2 (n0 := B) (n1 := Din) (i 0) (col Din hD (ib (ix1 (n := Dout) (i 1))))))

end Cert.Spec

end
-- ==== Proof.KI.HostVal.lean ====
import proofs.«428350_j82789789597763_3_alg».proof.Proof.Gen.KernelIdeal.Regions
import proofs.«428350_j82789789597763_3_alg».proof.Proof.Spec
import Idealize.ShloMosaic.Lib.ValueLayout
import Idealize.ShloMosaic.Lib.StableHlo.Predicate
import Idealize.ShloMosaic.Lib.IdealHost
import Idealize.ShloMosaic.Lib.WordArith

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (outs : Outs (F := Ideal))

/-- Clamping a signed word into [0, Din − 1] gives the column the word selects. -/
theorem clip_word (Din : ℕ) (hD : 0 < Din) (hlt : Din < 2 ^ 31) (w : BitVec 32) (k : Fin Din) :
    BitVec.ofNat 32 k.val = IntOp.minsi (BitVec.ofNat 32 (Din - 1)) (IntOp.maxsi 0#32 w) ↔ k = Cert.Spec.col Din hD w := by
  have hm : (IntOp.maxsi 0#32 w).toNat = w.toInt.toNat := WordArith.toNat_maxsi_zero w
  have hhi : (BitVec.ofNat 32 (Din - 1)).toNat = Din - 1 := by rw [BitVec.toNat_ofNat]; omega
  have hwlt : w.toInt.toNat < 2 ^ 31 := by
    have e := BitVec.toInt_eq_toNat_cond w
    have := w.isLt
    split at e <;> omega
  have hn : (IntOp.minsi (BitVec.ofNat 32 (Din - 1)) (IntOp.maxsi 0#32 w)).toNat = min (Din - 1) w.toInt.toNat := by
    rw [WordArith.toNat_minsi_of_lt _ _ (by omega) (by omega), hhi, hm]
  have hk := k.isLt
  rw [← BitVec.toNat_inj, BitVec.toNat_ofNat, hn, Nat.mod_eq_of_lt (by omega), Fin.ext_iff]
  show _ ↔ k.val = min w.toInt.toNat (Din - 1)
  omega

/-- A selector matrix compares row number k with index word j clamped: 1 where k is the column that word selects, else 0. -/
theorem onehot_apply {Din Dout : ℕ} (hD : 0 < Din) (hlt : Din < 2 ^ 31)
    (hz : S_.BroadcastsInDim (⟨1, ![Dout]⟩ : Shape) ![])
    (hs : (⟨1, ![Dout]⟩ : Shape).ShapeCasts ⟨2, ![1, Dout]⟩)
    (hb : (⟨2, ![1, Dout]⟩ : Shape).BroadcastsInDim ⟨2, ![Din, Dout]⟩ ![0, 1])
    {idx idx' : IVec ⟨1, ![Dout]⟩ 32} {sel : FVec Ideal ⟨2, ![Din, Dout]⟩ .bf16}
    (hsel : sel = uitofp (F := Ideal) .bf16 (cmpi .eq (iotaInDim ⟨2, ![Din, Dout]⟩ 32 0)
      (broadcastInDim ⟨2, ![Din, Dout]⟩ ![0, 1] hb (shapeCast ⟨2, ![1, Dout]⟩
        (minsi (broadcastInDim ⟨1, ![Dout]⟩ ![] hz (constantI S_ 32 (BitVec.ofNat 32 (Din - 1))))
          (maxsi (broadcastInDim ⟨1, ![Dout]⟩ ![] hz (constantI S_ 32 0#32)) idx')) hs))))
    (hidx : idx' = idx) (k : Fin Din) (j : Fin Dout) :
    sel (ix2 k j) = if k = Cert.Spec.col Din hD (idx (ix1 j)) then 1 else 0 := by
  subst hsel hidx
  have e : broadcastInDim ⟨2, ![Din, Dout]⟩ ![0, 1] hb (shapeCast ⟨2, ![1, Dout]⟩
        (minsi (broadcastInDim ⟨1, ![Dout]⟩ ![] hz (constantI S_ 32 (BitVec.ofNat 32 (Din - 1))))
          (maxsi (broadcastInDim ⟨1, ![Dout]⟩ ![] hz (constantI S_ 32 0#32)) idx')) hs) (ix2 k j)
      = IntOp.minsi (BitVec.ofNat 32 (Din - 1)) (IntOp.maxsi 0#32 (idx' (ix1 j))) := by
    rw [broadcastInDim_apply _ hb _ (ix2 k j) (ix2 (0 : Fin 1) j) (fun a => by
      have hj := j.isLt
      match a with
      | ⟨0, _⟩ => rfl
      | ⟨1, _⟩ =>
        show j.val = if Dout = 1 then 0 else j.val
        split <;> omega), shapeCast_a_1a_apply]
    show IntOp.minsi (broadcastInDim ⟨1, ![Dout]⟩ ![] hz (constantI S_ 32 (BitVec.ofNat 32 (Din - 1))) (ix1 j))
      (IntOp.maxsi (broadcastInDim ⟨1, ![Dout]⟩ ![] hz (constantI S_ 32 0#32) (ix1 j)) (idx' (ix1 j))) = _
    rw [broadcastInDim_scalar_apply, broadcastInDim_scalar_apply]
    rfl
  refine Eq.trans (?_ : _ = (((IntOp.cmpi .eq (BitVec.ofNat 32 k.val) (IntOp.minsi (BitVec.ofNat 32 (Din - 1)) (IntOp.maxsi 0#32 (idx' (ix1 j))))).toNat : ℝ) : EReal)) ?_
  · rw [← e]; rfl
  by_cases h : k = Cert.Spec.col Din hD (idx' (ix1 j))
  · rw [if_pos h, StableHlo.Predicate.cmpi_eq_iff.mpr ((clip_word Din hD hlt _ k).mpr h)]
    norm_num
  · rw [if_neg h, eq_zero_of_ne_one (fun h' => h ((clip_word Din hD hlt _ k).mp (StableHlo.Predicate.cmpi_eq_iff.mp h')))]
    norm_num

/-- A coefficient row at j is row j of the table at column q: a column slice, flattened, laid as one row. -/
theorem coefRow_apply {D : ℕ} (q : ℕ) (hq : q < 4)
    (hsl : (⟨2, ![D, 4]⟩ : Shape).Slices ![0, q] ⟨2, ![D, 1]⟩)
    (hc1 : (⟨2, ![D, 1]⟩ : Shape).ShapeCasts ⟨1, ![D]⟩) (hc : (⟨1, ![D]⟩ : Shape).ShapeCasts ⟨2, ![1, D]⟩)
    {T T' : (⟨2, ![D, 4]⟩ : Shape).Idx → EReal} {R : (⟨2, ![1, D]⟩ : Shape).Idx → EReal}
    (hR : R = shapeCast ⟨2, ![1, D]⟩ (shapeCast ⟨1, ![D]⟩ (extractStridedSlice ⟨2, ![D, 1]⟩ ![0, q] T' hsl) hc1) hc)
    (hT : T' = T) (j : Fin D) : R (ix2 (0 : Fin 1) j) = T (ix2 j ⟨q, hq⟩) := by
  subst hR hT
  rw [shapeCast_a_1a_apply, shapeCast_apply _ hc1 (ix1 j) (ix2 j (0 : Fin 1)) (by
    rw [Shape.rowMajor_val_two, Shape.rowMajor_val_one]
    show j.val * 1 + 0 = j.val
    omega)]
  exact slice2_axis1_apply q _ hsl j 0 ⟨q, hq⟩ rfl

theorem v36_apply (c : Dev nD) (r : Fin 4096) (k : Fin 1024) :
    V5 m c main_v36 (ix2 r k) = m ((c.tc : Thread nD τ).loc main_arg0) (ix2 r k) := by
  rw [V5_of m c main_v36 (by decide), V4_of m c main_v36 (by decide), V3_of m c main_v36 (by decide), V2_of m c main_v36 (by decide)]
  show after hostOps0 (V0 m c) main_v36 (ix2 r k) = _
  after_results_simp
  rfl

theorem v42_apply (c : Dev nD) (k : Fin 1024) (j : Fin 8192) :
    @Eq EReal (V5 m c main_v42 (ix2 k j)) (if k = Cert.Spec.col 1024 (by decide) ((m ((c.tc : Thread nD τ).loc main_arg4)) (ix1 j)) then 1 else 0) := by
  rw [V5_of m c main_v42 (by decide), V4_of m c main_v42 (by decide)]
  refine onehot_apply (by decide) (by norm_num) bcast_S_S8192 shapeCasts_S8192_S1x8192 bcast_S1x8192_S1024x8192_0_1 ?_ rfl k j
  show after hostOps0_2 (after hostOps0_1 (after hostOps0 (V0 m c))) main_v42 = _
  after_results_simp
  rfl

theorem v48_apply (c : Dev nD) (k : Fin 1024) (j : Fin 8192) :
    @Eq EReal (V5 m c main_v48 (ix2 k j)) (if k = Cert.Spec.col 1024 (by decide) ((m ((c.tc : Thread nD τ).loc main_arg5)) (ix1 j)) then 1 else 0) := by
  refine onehot_apply (by decide) (by norm_num) bcast_S_S8192 shapeCasts_S8192_S1x8192 bcast_S1x8192_S1024x8192_0_1 (idx' := V2 m c main_arg5) ?_
    (by rw [V2_of m c main_arg5 (by decide), V1_of m c main_arg5 (by decide)]) k j
  show after hostOps0_4 (after hostOps0_3 (after hostOps0_2 (V2 m c))) main_v48 = _
  generalize V2 m c = W
  after_results
  rfl

theorem v11_keep (c : Dev nD) : V4 m c main_v11 = V1 m c main_v11 := by
  rw [V4_of m c main_v11 (by decide), V3_of m c main_v11 (by decide), V2_of m c main_v11 (by decide)]

theorem v51_apply (c : Dev nD) (j : Fin 8192) :
    V5 m c main_v51 (ix2 (n0 := 1) 0 j) = V1 m c main_v11 (ix2 (n1 := 4) j 0) := by
  refine coefRow_apply 0 (by decide) slices_S8192x4_S8192x1_0_0 shapeCasts_S8192x1_S8192 shapeCasts_S8192_S1x8192 ?_ (v11_keep m c) j
  show after hostOps0_4 (V4 m c) main_v51 = _
  generalize V4 m c = W
  after_results
  rfl

theorem v54_apply (c : Dev nD) (j : Fin 8192) :
    V5 m c main_v54 (ix2 (n0 := 1) 0 j) = V1 m c main_v11 (ix2 (n1 := 4) j 1) := by
  refine coefRow_apply 1 (by decide) slices_S8192x4_S8192x1_0_1 shapeCasts_S8192x1_S8192 shapeCasts_S8192_S1x8192 ?_ (v11_keep m c) j
  show after hostOps0_4 (V4 m c) main_v54 = _
  generalize V4 m c = W
  after_results
  rfl

theorem v57_apply (c : Dev nD) (j : Fin 8192) :
    V5 m c main_v57 (ix2 (n0 := 1) 0 j) = V1 m c main_v11 (ix2 (n1 := 4) j 2) := by
  refine coefRow_apply 2 (by decide) slices_S8192x4_S8192x1_0_2 shapeCasts_S8192x1_S8192 shapeCasts_S8192_S1x8192 ?_ (v11_keep m c) j
  show after hostOps0_4 (V4 m c) main_v57 = _
  generalize V4 m c = W
  after_results
  rfl

theorem v60_apply (c : Dev nD) (j : Fin 8192) :
    V5 m c main_v60 (ix2 (n0 := 1) 0 j) = V1 m c main_v11 (ix2 (n1 := 4) j 3) := by
  refine coefRow_apply 3 (by decide) slices_S8192x4_S8192x1_0_3 shapeCasts_S8192x1_S8192 shapeCasts_S8192_S1x8192 ?_ (v11_keep m c) j
  show after hostOps0_4 (V4 m c) main_v60 = _
  generalize V4 m c = W
  after_results
  rfl

theorem v61_eq (c : Dev nD) : V11 m outs c main_v61 = outs 6 main_v61 c := by
  rw [V11_of m outs c main_v61 (by decide), V10_of m outs c main_v61 (by decide), V9_of m outs c main_v61 (by decide), V8_of m outs c main_v61 (by decide), V7_of m outs c main_v61 (by decide)]
  exact Function.update_self ..

theorem v67_apply (c : Dev nD) (k : Fin 8192) (j : Fin 8192) :
    @Eq EReal (V11 m outs c main_v67 (ix2 k j)) (if k = Cert.Spec.col 8192 (by decide) ((m ((c.tc : Thread nD τ).loc main_arg6)) (ix1 j)) then 1 else 0) := by
  rw [V11_of m outs c main_v67 (by decide), V10_of m outs c main_v67 (by decide)]
  refine onehot_apply (by decide) (by norm_num) bcast_S_S8192 shapeCasts_S8192_S1x8192 bcast_S1x8192_S8192x8192_0_1 (idx' := V6 m outs c main_arg6) ?_
    (by rw [V6_of m outs c main_arg6 (by decide), V5_of m c main_arg6 (by decide), V4_of m c main_arg6 (by decide), V3_of m c main_arg6 (by decide), V2_of m c main_arg6 (by decide), V1_of m c main_arg6 (by decide)]) k j
  show after hostOps1_2 (after hostOps1_1 (after hostOps1 (V6 m outs c))) main_v67 = _
  generalize V6 m outs c = W
  after_results
  rfl

theorem v73_apply (c : Dev nD) (k : Fin 8192) (j : Fin 8192) :
    @Eq EReal (V11 m outs c main_v73 (ix2 k j)) (if k = Cert.Spec.col 8192 (by decide) ((m ((c.tc : Thread nD τ).loc main_arg7)) (ix1 j)) then 1 else 0) := by
  refine onehot_apply (by decide) (by norm_num) bcast_S_S8192 shapeCasts_S8192_S1x8192 bcast_S1x8192_S8192x8192_0_1 (idx' := V8 m outs c main_arg7) ?_
    (by rw [V8_of m outs c main_arg7 (by decide), V7_of m outs c main_arg7 (by decide), V6_of m outs c main_arg7 (by decide), V5_of m c main_arg7 (by decide), V4_of m c main_arg7 (by decide), V3_of m c main_arg7 (by decide), V2_of m c main_arg7 (by decide), V1_of m c main_arg7 (by decide)]) k j
  show after hostOps1_4 (after hostOps1_3 (after hostOps1_2 (V8 m outs c))) main_v73 = _
  generalize V8 m outs c = W
  after_results
  rfl

theorem v23_keep (c : Dev nD) : V10 m outs c main_v23 = V1 m c main_v23 := by
  rw [V10_of m outs c main_v23 (by decide), V9_of m outs c main_v23 (by decide), V8_of m outs c main_v23 (by decide), V7_of m outs c main_v23 (by decide), V6_of m outs c main_v23 (by decide), V5_of m c main_v23 (by decide), V4_of m c main_v23 (by decide), V3_of m c main_v23 (by decide), V2_of m c main_v23 (by decide)]

theorem v76_apply (c : Dev nD) (j : Fin 8192) :
    V11 m outs c main_v76 (ix2 (n0 := 1) 0 j) = V1 m c main_v23 (ix2 (n1 := 4) j 0) := by
  refine coefRow_apply 0 (by decide) slices_S8192x4_S8192x1_0_0 shapeCasts_S8192x1_S8192 shapeCasts_S8192_S1x8192 ?_ (v23_keep m outs c) j
  show after hostOps1_4 (V10 m outs c) main_v76 = _
  generalize V10 m outs c = W
  after_results
  rfl

theorem v79_apply (c : Dev nD) (j : Fin 8192) :
    V11 m outs c main_v79 (ix2 (n0 := 1) 0 j) = V1 m c main_v23 (ix2 (n1 := 4) j 1) := by
  refine coefRow_apply 1 (by decide) slices_S8192x4_S8192x1_0_1 shapeCasts_S8192x1_S8192 shapeCasts_S8192_S1x8192 ?_ (v23_keep m outs c) j
  show after hostOps1_4 (V10 m outs c) main_v79 = _
  generalize V10 m outs c = W
  after_results
  rfl

theorem v82_apply (c : Dev nD) (j : Fin 8192) :
    V11 m outs c main_v82 (ix2 (n0 := 1) 0 j) = V1 m c main_v23 (ix2 (n1 := 4) j 2) := by
  refine coefRow_apply 2 (by decide) slices_S8192x4_S8192x1_0_2 shapeCasts_S8192x1_S8192 shapeCasts_S8192_S1x8192 ?_ (v23_keep m outs c) j
  show after hostOps1_4 (V10 m outs c) main_v82 = _
  generalize V10 m outs c = W
  after_results
  rfl

theorem v85_apply (c : Dev nD) (j : Fin 8192) :
    V11 m outs c main_v85 (ix2 (n0 := 1) 0 j) = V1 m c main_v23 (ix2 (n1 := 4) j 3) := by
  refine coefRow_apply 3 (by decide) slices_S8192x4_S8192x1_0_3 shapeCasts_S8192x1_S8192 shapeCasts_S8192_S1x8192 ?_ (v23_keep m outs c) j
  show after hostOps1_4 (V10 m outs c) main_v85 = _
  generalize V10 m outs c = W
  after_results
  rfl

theorem v86_eq (c : Dev nD) : V17 m outs c main_v86 = outs 12 main_v86 c := by
  rw [V17_of m outs c main_v86 (by decide), V16_of m outs c main_v86 (by decide), V15_of m outs c main_v86 (by decide), V14_of m outs c main_v86 (by decide), V13_of m outs c main_v86 (by decide)]
  exact Function.update_self ..

theorem v92_apply (c : Dev nD) (k : Fin 8192) (j : Fin 10240) :
    @Eq EReal (V17 m outs c main_v92 (ix2 k j)) (if k = Cert.Spec.col 8192 (by decide) ((m ((c.tc : Thread nD τ).loc main_arg8)) (ix1 j)) then 1 else 0) := by
  rw [V17_of m outs c main_v92 (by decide), V16_of m outs c main_v92 (by decide)]
  refine onehot_apply (by decide) (by norm_num) bcast_S_S10240 shapeCasts_S10240_S1x10240 bcast_S1x10240_S8192x10240_0_1 (idx' := V12 m outs c main_arg8) ?_
    (by rw [V12_of m outs c main_arg8 (by decide), V11_of m outs c main_arg8 (by decide), V10_of m outs c main_arg8 (by decide), V9_of m outs c main_arg8 (by decide), V8_of m outs c main_arg8 (by decide), V7_of m outs c main_arg8 (by decide), V6_of m outs c main_arg8 (by decide), V5_of m c main_arg8 (by decide), V4_of m c main_arg8 (by decide), V3_of m c main_arg8 (by decide), V2_of m c main_arg8 (by decide), V1_of m c main_arg8 (by decide)]) k j
  show after hostOps2_2 (after hostOps2_1 (after hostOps2 (V12 m outs c))) main_v92 = _
  generalize V12 m outs c = W
  after_results
  rfl

theorem v98_apply (c : Dev nD) (k : Fin 8192) (j : Fin 10240) :
    @Eq EReal (V17 m outs c main_v98 (ix2 k j)) (if k = Cert.Spec.col 8192 (by decide) ((m ((c.tc : Thread nD τ).loc main_arg9)) (ix1 j)) then 1 else 0) := by
  refine onehot_apply (by decide) (by norm_num) bcast_S_S10240 shapeCasts_S10240_S1x10240 bcast_S1x10240_S8192x10240_0_1 (idx' := V14 m outs c main_arg9) ?_
    (by rw [V14_of m outs c main_arg9 (by decide), V13_of m outs c main_arg9 (by decide), V12_of m outs c main_arg9 (by decide), V11_of m outs c main_arg9 (by decide), V10_of m outs c main_arg9 (by decide), V9_of m outs c main_arg9 (by decide), V8_of m outs c main_arg9 (by decide), V7_of m outs c main_arg9 (by decide), V6_of m outs c main_arg9 (by decide), V5_of m c main_arg9 (by decide), V4_of m c main_arg9 (by decide), V3_of m c main_arg9 (by decide), V2_of m c main_arg9 (by decide), V1_of m c main_arg9 (by decide)]) k j
  show after hostOps2_4 (after hostOps2_3 (after hostOps2_2 (V14 m outs c))) main_v98 = _
  generalize V14 m outs c = W
  after_results
  rfl

theorem v35_keep (c : Dev nD) : V16 m outs c main_v35 = V1 m c main_v35 := by
  rw [V16_of m outs c main_v35 (by decide), V15_of m outs c main_v35 (by decide), V14_of m outs c main_v35 (by decide), V13_of m outs c main_v35 (by decide), V12_of m outs c main_v35 (by decide), V11_of m outs c main_v35 (by decide), V10_of m outs c main_v35 (by decide), V9_of m outs c main_v35 (by decide), V8_of m outs c main_v35 (by decide), V7_of m outs c main_v35 (by decide), V6_of m outs c main_v35 (by decide), V5_of m c main_v35 (by decide), V4_of m c main_v35 (by decide), V3_of m c main_v35 (by decide), V2_of m c main_v35 (by decide)]

theorem v101_apply (c : Dev nD) (j : Fin 10240) :
    V17 m outs c main_v101 (ix2 (n0 := 1) 0 j) = V1 m c main_v35 (ix2 (n1 := 4) j 0) := by
  refine coefRow_apply 0 (by decide) slices_S10240x4_S10240x1_0_0 shapeCasts_S10240x1_S10240 shapeCasts_S10240_S1x10240 ?_ (v35_keep m outs c) j
  show after hostOps2_4 (V16 m outs c) main_v101 = _
  generalize V16 m outs c = W
  after_results
  rfl

theorem v104_apply (c : Dev nD) (j : Fin 10240) :
    V17 m outs c main_v104 (ix2 (n0 := 1) 0 j) = V1 m c main_v35 (ix2 (n1 := 4) j 1) := by
  refine coefRow_apply 1 (by decide) slices_S10240x4_S10240x1_0_1 shapeCasts_S10240x1_S10240 shapeCasts_S10240_S1x10240 ?_ (v35_keep m outs c) j
  show after hostOps2_4 (V16 m outs c) main_v104 = _
  generalize V16 m outs c = W
  after_results
  rfl

theorem v107_apply (c : Dev nD) (j : Fin 10240) :
    V17 m outs c main_v107 (ix2 (n0 := 1) 0 j) = V1 m c main_v35 (ix2 (n1 := 4) j 2) := by
  refine coefRow_apply 2 (by decide) slices_S10240x4_S10240x1_0_2 shapeCasts_S10240x1_S10240 shapeCasts_S10240_S1x10240 ?_ (v35_keep m outs c) j
  show after hostOps2_4 (V16 m outs c) main_v107 = _
  generalize V16 m outs c = W
  after_results
  rfl

theorem v110_apply (c : Dev nD) (j : Fin 10240) :
    V17 m outs c main_v110 (ix2 (n0 := 1) 0 j) = V1 m c main_v35 (ix2 (n1 := 4) j 3) := by
  refine coefRow_apply 3 (by decide) slices_S10240x4_S10240x1_0_3 shapeCasts_S10240x1_S10240 shapeCasts_S10240_S1x10240 ?_ (v35_keep m outs c) j
  show after hostOps2_4 (V16 m outs c) main_v110 = _
  generalize V16 m outs c = W
  after_results
  rfl

end Cert.KernelIdeal.Hand

end
-- ==== Proof.KI.HostTerms.lean ====
import proofs.«428350_j82789789597763_3_alg».proof.Proof.Gen.KernelIdeal.Regions
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- The four mixing coefficients of each of n columns: the softmax of its 16 weights times the fixed 16 × 4 table. -/
def coefK {n : ℕ} (hz : S_.BroadcastsInDim (⟨1, ![n]⟩ : Shape) ![]) (h1 : (⟨1, ![n]⟩ : Shape).BroadcastsInDim ⟨2, ![n, 1]⟩ ![0])
    (h2 : (⟨2, ![n, 1]⟩ : Shape).BroadcastsInDim ⟨2, ![n, 16]⟩ ![0, 1]) (hr : (⟨2, ![n, 16]⟩ : Shape).ReducesTo [1] ⟨1, ![n]⟩)
    (D : DotDims ⟨2, ![n, 16]⟩ S16x4 ⟨2, ![n, 4]⟩) (w : FVec Ideal ⟨2, ![n, 16]⟩ .f32) : FVec Ideal ⟨2, ![n, 4]⟩ .f32 :=
  let rows (v : FVec Ideal ⟨1, ![n]⟩ .f32) : FVec Ideal ⟨2, ![n, 16]⟩ .f32 :=
    broadcastInDim (s := ⟨2, ![n, 1]⟩) _ ![0, 1] h2 (broadcastInDim (s := ⟨1, ![n]⟩) _ ![0] h1 v)
  let e := Host.exp (subf w (rows (maximumf (broadcastInDim (s := S_) _ ![] hz (constant (F := Ideal) S_ .f32 0xFF800000#32))
    (Host.reduce FloatOps.maximumf w (constant (F := Ideal) S_ .f32 0xFF800000#32) hr h_S_))))
  Host.dotGeneral D none (Host.divf e (rows (Host.reduceAdd e (constant (F := Ideal) S_ .f32 0x00000000#32) hr h_S_)))
    fun i => FloatOps.ofBits (F := Ideal) .f32 (lit0 (S16x4.rowMajor i))

def coefK8192 (w : FVec Ideal S8192x16 .f32) : FVec Ideal S8192x4 .f32 :=
  coefK bcast_S_S8192 bcast_S8192_S8192x1_0 bcast_S8192x1_S8192x16_0_1 reducesTo_S8192x16_S8192_d1 dot_S8192x16_S16x4_S8192x4_1_0_0_1_n_n w

def coefK10240 (w : FVec Ideal S10240x16 .f32) : FVec Ideal S10240x4 .f32 :=
  coefK bcast_S_S10240 bcast_S10240_S10240x1_0 bcast_S10240x1_S10240x16_0_1 reducesTo_S10240x16_S10240_d1 dot_S10240x16_S16x4_S10240x4_1_0_0_1_n_n w

/-- The tail: the last result widened, its 10240 columns as 10 groups of 1024, each group summed from 0, over 30. -/
def tailK (h : FVec Ideal S4096x10240 .bf16) : FVec Ideal S4096x10 .f32 :=
  Host.divf
    (Host.reduceAdd (shapeCast S4096x10x1024 (extf .f32 h bitsLt_bf16_f32) shapeCasts_S4096x10240_S4096x10x1024)
      (constant (F := Ideal) S_ .f32 0x00000000#32) reducesTo_S4096x10x1024_S4096x10_d2 h_S_)
    (broadcastInDim (s := S_) S4096x10 ![] bcast_S_S4096x10 (constant (F := Ideal) S_ .f32 0x41F00000#32))

variable (m : (ℓ : Loc nD τ sig) → Buf (Elt Ideal) ℓ) (outs : Outs (F := Ideal))

theorem v11_eq (c : Dev nD) : V1 m c main_v11 = coefK8192 (m ((c.tc : Thread nD τ).loc main_arg1)) := by
  show after hostOps0 (V0 m c) main_v11 = _
  after_results_simp
  rfl

theorem v23_eq (c : Dev nD) : V1 m c main_v23 = coefK8192 (m ((c.tc : Thread nD τ).loc main_arg2)) := by
  show after hostOps0 (V0 m c) main_v23 = _
  after_results_simp
  rfl

theorem v35_eq (c : Dev nD) : V1 m c main_v35 = coefK10240 (m ((c.tc : Thread nD τ).loc main_arg3)) := by
  show after hostOps0 (V0 m c) main_v35 = _
  after_results_simp
  rfl

theorem v116_eq (c : Dev nD) : V19 m outs c main_v116 = tailK (outs 18 main_v111 c) := by
  refine Eq.trans (?_ : _ = tailK (V18 m outs c main_v111)) (congrArg tailK (Function.update_self _ _ _))
  show after hostOps3 (V18 m outs c) main_v116 = _
  generalize V18 m outs c = W
  after_results
  rfl

end Cert.KernelIdeal.Hand

end
-- ==== Proof.KI.ValCommon.lean ====
import proofs.«428350_j82789789597763_3_alg».proof.Proof.Spec
import Idealize.ShloMosaic.Lib.StackMember
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.ShloMosaic.StackMember Idealize.ShloMosaic.Pipeline
open scoped BigOperators

variable {B Din Dout bm bn bk : ℕ}

/-- Entry (r, k) of a matrix at natural coordinates, zero outside the matrix. -/
def ext {m n : ℕ} (A : (⟨2, ![m, n]⟩ : Shape).Idx → EReal) (r k : ℕ) : EReal :=
  if h : r < m ∧ k < n then A (ix2 ⟨r, h.1⟩ ⟨k, h.2⟩) else 0

theorem ext_eq {m n : ℕ} (A : (⟨2, ![m, n]⟩ : Shape).Idx → EReal) (r : Fin m) (k : Fin n) : ext A r k = A (ix2 r k) :=
  dif_pos ⟨r.isLt, k.isLt⟩

/-- An entry read at its own coordinates. -/
theorem ext_at {m n : ℕ} (A : (⟨2, ![m, n]⟩ : Shape).Idx → EReal) (i : (⟨2, ![m, n]⟩ : Shape).Idx) {r k : ℕ}
    (h0 : (i 0).val = r) (h1 : (i 1).val = k) : ext A r k = A i := by
  subst h0 h1
  exact (ext_eq A (i 0) (i 1)).trans (congrArg A (eq_ix2 i)).symm

/-- An entry of the block at point t lies in the array, along each axis, the block's index times its size further on. -/
theorem emb_val {sig : RefSig} {G : Grid} (w : Window sig G) (t : Fin G.N) (y : (w.xblock (G.coords t)).Idx) (a : Fin w.shape.rank) {k s v : ℕ}
    (hk : w.index t a = k) (hs : w.size a = s) (hv : (y a).val = v) : ((w.rect t).emb y a : ℕ) = k * s + v := by
  rw [Window.rect_emb_val, hk, hs, hv]

/-- Row r of A against column j of W over the first N positions of the contraction. -/
def dotTo (A : (⟨2, ![B, Din]⟩ : Shape).Idx → EReal) (W : (⟨2, ![Din, Dout]⟩ : Shape).Idx → EReal) (r j N : ℕ) : EReal :=
  ∑ l ∈ Finset.range N, ext A r l * ext W l j

/-- The layer at an entry, over natural coordinates: a sum over Fin is the sum over the range. -/
theorem layerMM_ext (X : (⟨2, ![B, Din]⟩ : Shape).Idx → EReal) (OA OB : (⟨2, ![Din, Dout]⟩ : Shape).Idx → EReal)
    (C0 C1 C2 C3 : (⟨2, ![1, Dout]⟩ : Shape).Idx → EReal) (i : (⟨2, ![B, Dout]⟩ : Shape).Idx) :
    Cert.Spec.layerMM B Din Dout X OA OB C0 C1 C2 C3 i
      = Cert.Spec.poly (ext C0 0 (i 1)) (ext C1 0 (i 1)) (ext C2 0 (i 1)) (ext C3 0 (i 1))
          (dotTo X OA (i 0) (i 1) Din) (dotTo X OB (i 0) (i 1) Din) := by
  have hd : ∀ W : (⟨2, ![Din, Dout]⟩ : Shape).Idx → EReal,
      dotTo X W (i 0) (i 1) Din = ∑ k : Fin Din, X (ix2 (i 0) k) * W (ix2 k (i 1)) := fun W => by
    rw [dotTo, ← Fin.sum_univ_eq_sum_range (fun l => ext X (i 0) l * ext W l (i 1))]
    exact Finset.sum_congr rfl fun k _ => congrArg₂ (· * ·) (ext_eq X (i 0) k) (ext_eq W k (i 1))
  have hc : ∀ C : (⟨2, ![1, Dout]⟩ : Shape).Idx → EReal, ext C 0 (i 1) = C (ix2 0 (i 1)) := fun C => ext_eq C 0 (i 1)
  rw [hd, hd, hc, hc, hc, hc]
  rfl

/-- An accumulating step at an entry: what was there plus the row of the left block against the column of the right. -/
theorem mmAcc_apply {m k n : ℕ} {d : DotDims ⟨2, ![m, k]⟩ ⟨2, ![k, n]⟩ ⟨2, ![m, n]⟩} (hd : d = DotDims.plain m k n)
    (x : FVec Ideal ⟨2, ![m, k]⟩ .bf16) (s : FVec Ideal ⟨2, ![m, n]⟩ .f32) (w : FVec Ideal ⟨2, ![k, n]⟩ .bf16)
    (h1 : (⟨2, ![m, k]⟩ : Shape).ShapeCasts ⟨2, ![m, k]⟩) (h2 : (⟨2, ![k, n]⟩ : Shape).ShapeCasts ⟨2, ![k, n]⟩)
    (h3 : (⟨2, ![m, n]⟩ : Shape).ShapeCasts ⟨2, ![m, n]⟩) (p : Fin m) (q : Fin n) :
    shapeCast _ (addf s (matmul d none (shapeCast _ x h1) (shapeCast _ w h2) (constant ⟨2, ![m, n]⟩ .f32 0x00000000#32))) h3 (ix2 p q)
      = s (ix2 p q) + ∑ l : Fin k, x (ix2 p l) * w (ix2 l q) := by
  subst hd
  rw [shapeCast_self, shapeCast_self, shapeCast_self, addf_apply]
  exact congrArg _ ((Ideal.matmul_constant_zero_apply _ none x w _).trans
    ((Ideal.dotGeneral_apply _ none _ x w _).symm.trans (dotGeneral_plain_apply none x w p q)))

/-- The zero block at an entry. -/
theorem zeroBlk_apply {s : Shape} (h : s.ShapeCasts s) (i : s.Idx) :
    shapeCast s (broadcast s (Scalar.ofBits (F := Ideal) .f32 0x00000000#32)) h i = 0 := by
  rw [shapeCast_self]; exact Ideal.ofBits_zero_f32

/-- The stored block at an entry: the mixing polynomial of the two accumulators' entries with the column's coefficients. -/
theorem polyBlk_apply {m n : ℕ} (a b : FVec Ideal ⟨2, ![m, n]⟩ .f32) (r0 r1 r2 r3 : FVec Ideal ⟨2, ![1, n]⟩ .f32)
    (hb : (⟨2, ![1, n]⟩ : Shape).Broadcasts ⟨2, ![m, n]⟩) (hc : (⟨2, ![1, n]⟩ : Shape).ShapeCasts ⟨2, ![1, n]⟩)
    (hl : FTy.bf16.bits < FTy.f32.bits) (p : Fin m) (q : Fin n) :
    (truncf .bf16 (addf (addf (addf (broadcastTo _ (shapeCast _ r0 hc) hb) (mulf (broadcastTo _ (shapeCast _ r1 hc) hb) a))
        (mulf (broadcastTo _ (shapeCast _ r2 hc) hb) b)) (mulf (broadcastTo _ (shapeCast _ r3 hc) hb) (mulf a b))) hl
      : FVec Ideal ⟨2, ![m, n]⟩ .bf16) (ix2 p q)
      = Cert.Spec.poly (r0 (ix2 0 q)) (r1 (ix2 0 q)) (r2 (ix2 0 q)) (r3 (ix2 0 q)) (a (ix2 p q)) (b (ix2 p q)) := by
  rw [truncf_apply, addf_apply, addf_apply, addf_apply, mulf_apply, mulf_apply, mulf_apply, mulf_apply,
    broadcastTo_1b_ab_apply, broadcastTo_1b_ab_apply, broadcastTo_1b_ab_apply, broadcastTo_1b_ab_apply,
    shapeCast_self, shapeCast_self, shapeCast_self, shapeCast_self]
  rfl

/-- An accumulator restarted from zero at the points ≡ 0 (mod J), adding a block of the contraction at every point, holds after point t the contraction's first (t % J + 1) · bk positions. -/
theorem acc_dot (X : (⟨2, ![B, Din]⟩ : Shape).Idx → EReal) (W : (⟨2, ![Din, Dout]⟩ : Shape).Idx → EReal) {N : ℕ}
    (f : (n : ℕ) → n < N → (⟨2, ![bm, bn]⟩ : Shape).Idx → EReal)
    (step : (n : ℕ) → n < N → ((⟨2, ![bm, bn]⟩ : Shape).Idx → EReal) → (⟨2, ![bm, bn]⟩ : Shape).Idx → EReal)
    (z : (⟨2, ![bm, bn]⟩ : Shape).Idx → EReal)
    (x : (n : ℕ) → n < N → (⟨2, ![bm, bk]⟩ : Shape).Idx → EReal) (w : (n : ℕ) → n < N → (⟨2, ![bk, bn]⟩ : Shape).Idx → EReal)
    (R C : ℕ → ℕ) (J t r0 c0 : ℕ) (hJ : 0 < J) (ht : t < N)
    (h0 : ∀ n h, n % J = 0 → f n h = step n h z)
    (hs : ∀ n h, ¬(n + 1) % J = 0 → f (n + 1) h = step (n + 1) h (f n (Nat.lt_of_succ_lt h)))
    (hz : ∀ p q, z (ix2 p q) = 0)
    (hstep : ∀ n h s p q, step n h s (ix2 p q) = s (ix2 p q) + ∑ l : Fin bk, x n h (ix2 p l) * w n h (ix2 l q))
    (hx : ∀ n h (p : Fin bm) (l : Fin bk), ext X (R n + p) (n % J * bk + l) = x n h (ix2 p l))
    (hw : ∀ n h (l : Fin bk) (q : Fin bn), ext W (n % J * bk + l) (C n + q) = w n h (ix2 l q))
    (hb : ∀ j, j < J → (J * (t / J) + j) % J = j ∧ R (J * (t / J) + j) = r0 ∧ C (J * (t / J) + j) = c0)
    (p : Fin bm) (q : Fin bn) : f t ht (ix2 p q) = dotTo X W (r0 + p) (c0 + q) ((t % J + 1) * bk) := by
  have h' : J * (t / J) + t % J < N := (Nat.div_add_mod t J).symm ▸ ht
  have blk : ∀ j h s, j < J → step (J * (t / J) + j) h s (ix2 p q)
      = s (ix2 p q) + ∑ l ∈ Finset.range bk, ext X (r0 + p) (j * bk + l) * ext W (j * bk + l) (c0 + q) := fun j h s hj => by
    obtain ⟨e, eR, eC⟩ := hb j hj
    rw [hstep, ← Fin.sum_univ_eq_sum_range (fun l => ext X (r0 + p) (j * bk + l) * ext W (j * bk + l) (c0 + q))]
    exact congrArg _ (Finset.sum_congr rfl fun l _ => by rw [← hx _ h p l, ← hw _ h l q, e, eR, eC])
  have run : ∀ j h, j < J → accAt (fun n h => step n h z) step (J * (t / J)) j h (ix2 p q)
      = dotTo X W (r0 + p) (c0 + q) ((j + 1) * bk) := fun j => by
    induction j with
    | zero =>
      intro h hj
      refine (blk 0 h z hj).trans ?_
      rw [hz, zero_add, dotTo, Nat.zero_add, Nat.one_mul]
      exact Finset.sum_congr rfl fun l _ => by rw [Nat.zero_mul, Nat.zero_add]
    | succ j ih =>
      intro h hj
      refine (blk (j + 1) h _ hj).trans ?_
      rw [ih _ (Nat.lt_of_succ_lt hj), dotTo, dotTo, Nat.succ_mul (j + 1) bk, Finset.sum_range_add]
  exact (congrFun (eq_accAt_of_mod f J _ step h0 hs hJ t ht h') (ix2 p q)).trans (run _ h' (Nat.mod_lt _ hJ))

end Cert.KernelIdeal.Hand

end
-- ==== Proof.KI.R0Val.lean ====
import proofs.«428350_j82789789597763_3_alg».proof.Proof.KI.R0Defs
import proofs.«428350_j82789789597763_3_alg».proof.Proof.KI.ValCommon

noncomputable section

namespace Cert.KernelIdeal.Hand

open Cert.KernelIdeal Cert.KernelIdeal.Gen
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- Point t has grid coordinates (t / 8, t % 8, 0). -/
theorem idx0 : ∀ t : Fin cfg0.N,
    win0_0.index t (0 : Fin 2) = t.val / 8 ∧ win0_0.index t (1 : Fin 2) = t.val % 1
    ∧ win0_1.index t (0 : Fin 2) = t.val % 1 ∧ win0_1.index t (1 : Fin 2) = t.val % 8
    ∧ win0_2.index t (0 : Fin 2) = t.val % 1 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = 0 ∧ win0_5.index t (1 : Fin 2) = t.val % 8
    ∧ win0_6.index t (0 : Fin 2) = 0 ∧ win0_6.index t (1 : Fin 2) = t.val % 8
    ∧ win0_7.index t (0 : Fin 2) = t.val / 8 ∧ win0_7.index t (1 : Fin 2) = t.val % 8 :=
  (by decide +kernel : ∀ t : Fin grid0.N, _)

/-- An entry of each of point t's blocks is its array's entry, the block's index times its size further on. -/
theorem blk0 (c : Dev nD) (t : Fin cfg0.N) (p l q : Fin 1024) :
    ext (V c main_v36) (t.val / 8 * 1024 + p) (t.val % 1 * 1024 + l) = xb0 V c t (ix2 p l)
    ∧ ext (V c main_v42) (t.val % 1 * 1024 + l) (t.val % 8 * 1024 + q) = oa0 V c t (ix2 l q)
    ∧ ext (V c main_v48) (t.val % 1 * 1024 + l) (t.val % 8 * 1024 + q) = ob0 V c t (ix2 l q)
    ∧ ext (V c main_v51) 0 (t.val % 8 * 1024 + q) = c0b0 V c t (ix2 0 q)
    ∧ ext (V c main_v54) 0 (t.val % 8 * 1024 + q) = c1b0 V c t (ix2 0 q)
    ∧ ext (V c main_v57) 0 (t.val % 8 * 1024 + q) = c2b0 V c t (ix2 0 q)
    ∧ ext (V c main_v60) 0 (t.val % 8 * 1024 + q) = c3b0 V c t (ix2 0 q)
    ∧ ((((cfg0.win 7).blk t).view.emb (ix2 p q)) 0).val = t.val / 8 * 1024 + p
    ∧ ((((cfg0.win 7).blk t).view.emb (ix2 p q)) 1).val = t.val % 8 * 1024 + q := by
  obtain ⟨x0, x1, a0, a1, b0, b1, d0, d1, e0, e1, f0, f1, g0, g1, o0, o1⟩ := idx0 t
  exact ⟨ext_at _ _ (emb_val win0_0 t _ (0 : Fin 2) x0 rfl rfl) (emb_val win0_0 t _ (1 : Fin 2) x1 rfl rfl),
    ext_at _ _ (emb_val win0_1 t _ (0 : Fin 2) a0 rfl rfl) (emb_val win0_1 t _ (1 : Fin 2) a1 rfl rfl),
    ext_at _ _ (emb_val win0_2 t _ (0 : Fin 2) b0 rfl rfl) (emb_val win0_2 t _ (1 : Fin 2) b1 rfl rfl),
    ext_at _ _ (emb_val win0_3 t _ (0 : Fin 2) d0 rfl rfl) (emb_val win0_3 t _ (1 : Fin 2) d1 rfl rfl),
    ext_at _ _ (emb_val win0_4 t _ (0 : Fin 2) e0 rfl rfl) (emb_val win0_4 t _ (1 : Fin 2) e1 rfl rfl),
    ext_at _ _ (emb_val win0_5 t _ (0 : Fin 2) f0 rfl rfl) (emb_val win0_5 t _ (1 : Fin 2) f1 rfl rfl),
    ext_at _ _ (emb_val win0_6 t _ (0 : Fin 2) g0 rfl rfl) (emb_val win0_6 t _ (1 : Fin 2) g1 rfl rfl),
    emb_val win0_7 t _ (0 : Fin 2) o0 rfl rfl, emb_val win0_7 t _ (1 : Fin 2) o1 rfl rfl⟩

/-- The accumulators after a point hold, at an entry, the whole contraction: every point is a run of its own. -/
theorem acc0_apply (c : Dev nD) (t : Fin cfg0.N) (p q : Fin 1024) :
    accA0 (xb0 V c t) (oa0 V c t) (ix2 p q)
        = dotTo (V c main_v36) (V c main_v42) (t.val / 8 * 1024 + p) (t.val % 8 * 1024 + q) ((t.val % 1 + 1) * 1024)
    ∧ accB0 (xb0 V c t) (ob0 V c t) (ix2 p q)
        = dotTo (V c main_v36) (V c main_v48) (t.val / 8 * 1024 + p) (t.val % 8 * 1024 + q) ((t.val % 1 + 1) * 1024) :=
  ⟨acc_dot (V c main_v36) (V c main_v42) (fun n h => accA0 (xb0 V c ⟨n, h⟩) (oa0 V c ⟨n, h⟩)) (fun n h s => k0_pay4 (xb0 V c ⟨n, h⟩) s (oa0 V c ⟨n, h⟩))
      (k0_pay1 (F := Ideal)) (fun n h => xb0 V c ⟨n, h⟩) (fun n h => oa0 V c ⟨n, h⟩) (fun n => n / 8 * 1024) (fun n => n % 8 * 1024)
      1 t.val _ _ (by decide) t.isLt (fun _ _ _ => rfl) (fun n _ e => absurd (Nat.mod_one _) e) (fun p q => zeroBlk_apply _ _)
      (fun n h s p q => mmAcc_apply rfl _ s _ _ _ _ p q) (fun n h p l => (blk0 V c ⟨n, h⟩ p l l).1)
      (fun n h l q => (blk0 V c ⟨n, h⟩ l l q).2.1) (fun j hj => by omega) p q,
    acc_dot (V c main_v36) (V c main_v48) (fun n h => accB0 (xb0 V c ⟨n, h⟩) (ob0 V c ⟨n, h⟩)) (fun n h s => k0_pay5 (xb0 V c ⟨n, h⟩) s (ob0 V c ⟨n, h⟩))
      (k0_pay2 (F := Ideal)) (fun n h => xb0 V c ⟨n, h⟩) (fun n h => ob0 V c ⟨n, h⟩) (fun n => n / 8 * 1024) (fun n => n % 8 * 1024)
      1 t.val _ _ (by decide) t.isLt (fun _ _ _ => rfl) (fun n _ e => absurd (Nat.mod_one _) e) (fun p q => zeroBlk_apply _ _)
      (fun n h s p q => mmAcc_apply rfl _ s _ _ _ _ p q) (fun n h p l => (blk0 V c ⟨n, h⟩ p l l).1)
      (fun n h l q => (blk0 V c ⟨n, h⟩ l l q).2.2.1) (fun j hj => by omega) p q⟩

/-- The block a point stores is its block of the layer. -/
theorem flushed0_eq (c : Dev nD) (t : Fin cfg0.N) :
    (dat0 (F := Ideal) V c).flushed 7 t = ((cfg0.win 7).blk t).view.read (Elt Ideal)
      (Cert.Spec.layerMM 4096 1024 8192 (V c main_v36) (V c main_v42) (V c main_v48) (V c main_v51) (V c main_v54) (V c main_v57) (V c main_v60)) := by
  show (cfg0.win 7).cut (grid0.coords t) ((dat0 (F := Ideal) V c).after 7 t) = _
  rw [after0_7]
  funext y
  obtain ⟨p, q, rfl⟩ : ∃ (p q : Fin 1024), y = ix2 p q := ⟨y 0, y 1, eq_ix2 y⟩
  obtain ⟨hA, hB⟩ := acc0_apply V c t p q
  obtain ⟨-, -, -, r0, r1, r2, r3, i0, i1⟩ := blk0 V c t p p q
  rw [Nat.mod_one] at hA hB
  show out0 V c t (ix2 p q) = Cert.Spec.layerMM 4096 1024 8192 _ _ _ _ _ _ _ (((cfg0.win 7).blk t).view.emb (ix2 p q))
  rw [layerMM_ext, i0, i1, r0, r1, r2, r3, ← hA, ← hB]
  exact polyBlk_apply _ _ _ _ _ _ _ _ _ p q

/-- The output's blocks tile the array. -/
theorem cover0 (i : S4096x8192.Idx) : ∃ t : Fin cfg0.N, (cfg0.win 7).flush t = true ∧ i ∈ ((cfg0.win 7).blk t).view.set := by
  have h0 : (i 0).val < 4096 := (i 0).isLt
  have h1 : (i 1).val < 8192 := (i 1).isLt
  obtain ⟨t, ht⟩ : ∃ t : Fin cfg0.N, t.val = (i 0).val / 1024 * 8 + (i 1).val / 1024 :=
    ⟨⟨_, lt_of_lt_of_eq (by omega) N_0.symm⟩, rfl⟩
  have e := idx0 t
  refine ⟨t, flush0_7 t, ?_⟩
  show i ∈ ((View.whole main_v61).slice (win0_7.rect t)).set
  rw [View.set_slice_whole, Rect.mem_set_unit]
  exact Fin.forall_fin_two.mpr
    ⟨by show win0_7.index t (0 : Fin 2) * 1024 ≤ (i 0).val ∧ (i 0).val < win0_7.index t (0 : Fin 2) * 1024 + 1024; omega,
      by show win0_7.index t (1 : Fin 2) * 1024 ≤ (i 1).val ∧ (i 1).val < win0_7.index t (1 : Fin 2) * 1024 + 1024; omega⟩

theorem arrAt0_out (c : Dev nD) :
    (dat0 (F := Ideal) V c).arrAt 7 cfg0.N
      = Cert.Spec.layerMM 4096 1024 8192 (V c main_v36) (V c main_v42) (V c main_v48) (V c main_v51) (V c main_v54) (V c main_v57) (V c main_v60) :=
  (dat0 (F := Ideal) V c).arrAt_eq_of_cover 7 _ (fun t _ => flushed0_eq V c t) cover0

end Cert.KernelIdeal.Hand

end
-- ==== Proof.KI.R1Val.lean ====
import proofs.«428350_j82789789597763_3_alg».proof.Proof.KI.R1Defs
import proofs.«428350_j82789789597763_3_alg».proof.Proof.KI.ValCommon

noncomputable section

namespace Cert.KernelIdeal.Hand

open Cert.KernelIdeal Cert.KernelIdeal.Gen
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- Point t has grid coordinates (t / 64, t / 8 % 8, t % 8). -/
theorem idx1 : ∀ t : Fin cfg1.N,
    win1_0.index t (0 : Fin 2) = t.val / 64 ∧ win1_0.index t (1 : Fin 2) = t.val % 8
    ∧ win1_1.index t (0 : Fin 2) = t.val % 8 ∧ win1_1.index t (1 : Fin 2) = t.val / 8 % 8
    ∧ win1_2.index t (0 : Fin 2) = t.val % 8 ∧ win1_2.index t (1 : Fin 2) = t.val / 8 % 8
    ∧ win1_3.index t (0 : Fin 2) = 0 ∧ win1_3.index t (1 : Fin 2) = t.val / 8 % 8
    ∧ win1_4.index t (0 : Fin 2) = 0 ∧ win1_4.index t (1 : Fin 2) = t.val / 8 % 8
    ∧ win1_5.index t (0 : Fin 2) = 0 ∧ win1_5.index t (1 : Fin 2) = t.val / 8 % 8
    ∧ win1_6.index t (0 : Fin 2) = 0 ∧ win1_6.index t (1 : Fin 2) = t.val / 8 % 8
    ∧ win1_7.index t (0 : Fin 2) = t.val / 64 ∧ win1_7.index t (1 : Fin 2) = t.val / 8 % 8 :=
  (by decide +kernel : ∀ t : Fin grid1.N, _)

/-- An entry of each of point t's blocks is its array's entry, the block's index times its size further on. -/
theorem blk1 (c : Dev nD) (t : Fin cfg1.N) (p l q : Fin 1024) :
    ext (V c main_v61) (t.val / 64 * 1024 + p) (t.val % 8 * 1024 + l) = xb1 V c t (ix2 p l)
    ∧ ext (V c main_v67) (t.val % 8 * 1024 + l) (t.val / 8 % 8 * 1024 + q) = oa1 V c t (ix2 l q)
    ∧ ext (V c main_v73) (t.val % 8 * 1024 + l) (t.val / 8 % 8 * 1024 + q) = ob1 V c t (ix2 l q)
    ∧ ext (V c main_v76) 0 (t.val / 8 % 8 * 1024 + q) = c0b1 V c t (ix2 0 q)
    ∧ ext (V c main_v79) 0 (t.val / 8 % 8 * 1024 + q) = c1b1 V c t (ix2 0 q)
    ∧ ext (V c main_v82) 0 (t.val / 8 % 8 * 1024 + q) = c2b1 V c t (ix2 0 q)
    ∧ ext (V c main_v85) 0 (t.val / 8 % 8 * 1024 + q) = c3b1 V c t (ix2 0 q)
    ∧ ((((cfg1.win 7).blk t).view.emb (ix2 p q)) 0).val = t.val / 64 * 1024 + p
    ∧ ((((cfg1.win 7).blk t).view.emb (ix2 p q)) 1).val = t.val / 8 % 8 * 1024 + q := by
  obtain ⟨x0, x1, a0, a1, b0, b1, d0, d1, e0, e1, f0, f1, g0, g1, o0, o1⟩ := idx1 t
  exact ⟨ext_at _ _ (emb_val win1_0 t _ (0 : Fin 2) x0 rfl rfl) (emb_val win1_0 t _ (1 : Fin 2) x1 rfl rfl),
    ext_at _ _ (emb_val win1_1 t _ (0 : Fin 2) a0 rfl rfl) (emb_val win1_1 t _ (1 : Fin 2) a1 rfl rfl),
    ext_at _ _ (emb_val win1_2 t _ (0 : Fin 2) b0 rfl rfl) (emb_val win1_2 t _ (1 : Fin 2) b1 rfl rfl),
    ext_at _ _ (emb_val win1_3 t _ (0 : Fin 2) d0 rfl rfl) (emb_val win1_3 t _ (1 : Fin 2) d1 rfl rfl),
    ext_at _ _ (emb_val win1_4 t _ (0 : Fin 2) e0 rfl rfl) (emb_val win1_4 t _ (1 : Fin 2) e1 rfl rfl),
    ext_at _ _ (emb_val win1_5 t _ (0 : Fin 2) f0 rfl rfl) (emb_val win1_5 t _ (1 : Fin 2) f1 rfl rfl),
    ext_at _ _ (emb_val win1_6 t _ (0 : Fin 2) g0 rfl rfl) (emb_val win1_6 t _ (1 : Fin 2) g1 rfl rfl),
    emb_val win1_7 t _ (0 : Fin 2) o0 rfl rfl, emb_val win1_7 t _ (1 : Fin 2) o1 rfl rfl⟩

/-- After point t the accumulators hold, at an entry, the contraction's first (t % 8 + 1) · 1024 positions. -/
theorem acc1_apply (c : Dev nD) (t : Fin cfg1.N) (p q : Fin 1024) :
    (acc1 V c t.val t.isLt).1 (ix2 p q)
        = dotTo (V c main_v61) (V c main_v67) (t.val / 64 * 1024 + p) (t.val / 8 % 8 * 1024 + q) ((t.val % 8 + 1) * 1024)
    ∧ (acc1 V c t.val t.isLt).2 (ix2 p q)
        = dotTo (V c main_v61) (V c main_v73) (t.val / 64 * 1024 + p) (t.val / 8 % 8 * 1024 + q) ((t.val % 8 + 1) * 1024) := by
  exact ⟨acc_dot (V c main_v61) (V c main_v67) (fun n h => (acc1 V c n h).1) (fun n h s => k1_pay4 (xb1 V c ⟨n, h⟩) s (oa1 V c ⟨n, h⟩))
      (k1_pay1 (F := Ideal)) (fun n h => xb1 V c ⟨n, h⟩) (fun n h => oa1 V c ⟨n, h⟩) (fun n => n / 64 * 1024) (fun n => n / 8 % 8 * 1024)
      8 t.val _ _ (by decide) t.isLt (fun n h e => congrArg Prod.fst (acc1_first V c ⟨n, h⟩ e))
      (fun n h e => congrArg Prod.fst (acc1_next V c ⟨n + 1, h⟩ e)) (fun p q => zeroBlk_apply _ _)
      (fun n h s p q => mmAcc_apply rfl _ s _ _ _ _ p q) (fun n h p l => (blk1 V c ⟨n, h⟩ p l l).1)
      (fun n h l q => (blk1 V c ⟨n, h⟩ l l q).2.1) (fun j hj => by omega) p q,
    acc_dot (V c main_v61) (V c main_v73) (fun n h => (acc1 V c n h).2) (fun n h s => k1_pay5 (xb1 V c ⟨n, h⟩) s (ob1 V c ⟨n, h⟩))
      (k1_pay2 (F := Ideal)) (fun n h => xb1 V c ⟨n, h⟩) (fun n h => ob1 V c ⟨n, h⟩) (fun n => n / 64 * 1024) (fun n => n / 8 % 8 * 1024)
      8 t.val _ _ (by decide) t.isLt (fun n h e => congrArg Prod.snd (acc1_first V c ⟨n, h⟩ e))
      (fun n h e => congrArg Prod.snd (acc1_next V c ⟨n + 1, h⟩ e)) (fun p q => zeroBlk_apply _ _)
      (fun n h s p q => mmAcc_apply rfl _ s _ _ _ _ p q) (fun n h p l => (blk1 V c ⟨n, h⟩ p l l).1)
      (fun n h l q => (blk1 V c ⟨n, h⟩ l l q).2.2.1) (fun j hj => by omega) p q⟩

/-- At a last step of the contraction the stored block is its block of the layer. -/
theorem flushed1_eq (c : Dev nD) (t : Fin cfg1.N) (hf : (cfg1.win 7).flush t = true) :
    (dat1 (F := Ideal) V c).flushed 7 t = ((cfg1.win 7).blk t).view.read (Elt Ideal)
      (Cert.Spec.layerMM 4096 8192 8192 (V c main_v61) (V c main_v67) (V c main_v73) (V c main_v76) (V c main_v79) (V c main_v82) (V c main_v85)) := by
  have ht : t.val % 8 = 7 := (flush1_7 t).mp hf
  show (cfg1.win 7).cut (grid1.coords t) ((dat1 (F := Ideal) V c).after 7 t) = _
  rw [after1_7]
  funext y
  obtain ⟨p, q, rfl⟩ : ∃ (p q : Fin 1024), y = ix2 p q := ⟨y 0, y 1, eq_ix2 y⟩
  obtain ⟨hA, hB⟩ := acc1_apply V c t p q
  obtain ⟨-, -, -, r0, r1, r2, r3, i0, i1⟩ := blk1 V c t p p q
  rw [ht] at hA hB
  show out1 V c t (ix2 p q) = Cert.Spec.layerMM 4096 8192 8192 _ _ _ _ _ _ _ (((cfg1.win 7).blk t).view.emb (ix2 p q))
  rw [layerMM_ext, i0, i1, r0, r1, r2, r3, ← hA, ← hB]
  exact polyBlk_apply _ _ _ _ _ _ _ _ _ p q

/-- The output's blocks at the last steps tile the array. -/
theorem cover1 (i : S4096x8192.Idx) : ∃ t : Fin cfg1.N, (cfg1.win 7).flush t = true ∧ i ∈ ((cfg1.win 7).blk t).view.set := by
  have h0 : (i 0).val < 4096 := (i 0).isLt
  have h1 : (i 1).val < 8192 := (i 1).isLt
  obtain ⟨t, ht⟩ : ∃ t : Fin cfg1.N, t.val = ((i 0).val / 1024 * 8 + (i 1).val / 1024) * 8 + 7 :=
    ⟨⟨_, lt_of_lt_of_eq (by omega) N_1.symm⟩, rfl⟩
  have e := idx1 t
  refine ⟨t, (flush1_7 t).mpr (by omega), ?_⟩
  show i ∈ ((View.whole main_v86).slice (win1_7.rect t)).set
  rw [View.set_slice_whole, Rect.mem_set_unit]
  exact Fin.forall_fin_two.mpr
    ⟨by show win1_7.index t (0 : Fin 2) * 1024 ≤ (i 0).val ∧ (i 0).val < win1_7.index t (0 : Fin 2) * 1024 + 1024; omega,
      by show win1_7.index t (1 : Fin 2) * 1024 ≤ (i 1).val ∧ (i 1).val < win1_7.index t (1 : Fin 2) * 1024 + 1024; omega⟩

theorem arrAt1_out (c : Dev nD) :
    (dat1 (F := Ideal) V c).arrAt 7 cfg1.N
      = Cert.Spec.layerMM 4096 8192 8192 (V c main_v61) (V c main_v67) (V c main_v73) (V c main_v76) (V c main_v79) (V c main_v82) (V c main_v85) :=
  (dat1 (F := Ideal) V c).arrAt_eq_of_cover 7 _ (fun t hf => flushed1_eq V c t hf) cover1

end Cert.KernelIdeal.Hand

end
-- ==== Proof.KI.R2Val.lean ====
import proofs.«428350_j82789789597763_3_alg».proof.Proof.KI.R2Defs
import proofs.«428350_j82789789597763_3_alg».proof.Proof.KI.ValCommon

noncomputable section

namespace Cert.KernelIdeal.Hand

open Cert.KernelIdeal Cert.KernelIdeal.Gen
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- Point t has grid coordinates (t / 160, t / 8 % 20, t % 8). -/
theorem idx2 : ∀ t : Fin cfg2.N,
    win2_0.index t (0 : Fin 2) = t.val / 160 ∧ win2_0.index t (1 : Fin 2) = t.val % 8
    ∧ win2_1.index t (0 : Fin 2) = t.val % 8 ∧ win2_1.index t (1 : Fin 2) = t.val / 8 % 20
    ∧ win2_2.index t (0 : Fin 2) = t.val % 8 ∧ win2_2.index t (1 : Fin 2) = t.val / 8 % 20
    ∧ win2_3.index t (0 : Fin 2) = 0 ∧ win2_3.index t (1 : Fin 2) = t.val / 8 % 20
    ∧ win2_4.index t (0 : Fin 2) = 0 ∧ win2_4.index t (1 : Fin 2) = t.val / 8 % 20
    ∧ win2_5.index t (0 : Fin 2) = 0 ∧ win2_5.index t (1 : Fin 2) = t.val / 8 % 20
    ∧ win2_6.index t (0 : Fin 2) = 0 ∧ win2_6.index t (1 : Fin 2) = t.val / 8 % 20
    ∧ win2_7.index t (0 : Fin 2) = t.val / 160 ∧ win2_7.index t (1 : Fin 2) = t.val / 8 % 20 :=
  (by decide +kernel : ∀ t : Fin grid2.N, _)

/-- An entry of each of point t's blocks is its array's entry, the block's index times its size further on. -/
theorem blk2 (c : Dev nD) (t : Fin cfg2.N) (p l : Fin 1024) (q : Fin 512) :
    ext (V c main_v86) (t.val / 160 * 1024 + p) (t.val % 8 * 1024 + l) = xb2 V c t (ix2 p l)
    ∧ ext (V c main_v92) (t.val % 8 * 1024 + l) (t.val / 8 % 20 * 512 + q) = oa2 V c t (ix2 l q)
    ∧ ext (V c main_v98) (t.val % 8 * 1024 + l) (t.val / 8 % 20 * 512 + q) = ob2 V c t (ix2 l q)
    ∧ ext (V c main_v101) 0 (t.val / 8 % 20 * 512 + q) = c0b2 V c t (ix2 0 q)
    ∧ ext (V c main_v104) 0 (t.val / 8 % 20 * 512 + q) = c1b2 V c t (ix2 0 q)
    ∧ ext (V c main_v107) 0 (t.val / 8 % 20 * 512 + q) = c2b2 V c t (ix2 0 q)
    ∧ ext (V c main_v110) 0 (t.val / 8 % 20 * 512 + q) = c3b2 V c t (ix2 0 q)
    ∧ ((((cfg2.win 7).blk t).view.emb (ix2 p q)) 0).val = t.val / 160 * 1024 + p
    ∧ ((((cfg2.win 7).blk t).view.emb (ix2 p q)) 1).val = t.val / 8 % 20 * 512 + q := by
  obtain ⟨x0, x1, a0, a1, b0, b1, d0, d1, e0, e1, f0, f1, g0, g1, o0, o1⟩ := idx2 t
  exact ⟨ext_at _ _ (emb_val win2_0 t _ (0 : Fin 2) x0 rfl rfl) (emb_val win2_0 t _ (1 : Fin 2) x1 rfl rfl),
    ext_at _ _ (emb_val win2_1 t _ (0 : Fin 2) a0 rfl rfl) (emb_val win2_1 t _ (1 : Fin 2) a1 rfl rfl),
    ext_at _ _ (emb_val win2_2 t _ (0 : Fin 2) b0 rfl rfl) (emb_val win2_2 t _ (1 : Fin 2) b1 rfl rfl),
    ext_at _ _ (emb_val win2_3 t _ (0 : Fin 2) d0 rfl rfl) (emb_val win2_3 t _ (1 : Fin 2) d1 rfl rfl),
    ext_at _ _ (emb_val win2_4 t _ (0 : Fin 2) e0 rfl rfl) (emb_val win2_4 t _ (1 : Fin 2) e1 rfl rfl),
    ext_at _ _ (emb_val win2_5 t _ (0 : Fin 2) f0 rfl rfl) (emb_val win2_5 t _ (1 : Fin 2) f1 rfl rfl),
    ext_at _ _ (emb_val win2_6 t _ (0 : Fin 2) g0 rfl rfl) (emb_val win2_6 t _ (1 : Fin 2) g1 rfl rfl),
    emb_val win2_7 t _ (0 : Fin 2) o0 rfl rfl, emb_val win2_7 t _ (1 : Fin 2) o1 rfl rfl⟩

/-- After point t the accumulators hold, at an entry, the contraction's first (t % 8 + 1) · 1024 positions. -/
theorem acc2_apply (c : Dev nD) (t : Fin cfg2.N) (p : Fin 1024) (q : Fin 512) :
    (acc2 V c t.val t.isLt).1 (ix2 p q)
        = dotTo (V c main_v86) (V c main_v92) (t.val / 160 * 1024 + p) (t.val / 8 % 20 * 512 + q) ((t.val % 8 + 1) * 1024)
    ∧ (acc2 V c t.val t.isLt).2 (ix2 p q)
        = dotTo (V c main_v86) (V c main_v98) (t.val / 160 * 1024 + p) (t.val / 8 % 20 * 512 + q) ((t.val % 8 + 1) * 1024) := by
  exact ⟨acc_dot (V c main_v86) (V c main_v92) (fun n h => (acc2 V c n h).1) (fun n h s => k2_pay4 (xb2 V c ⟨n, h⟩) s (oa2 V c ⟨n, h⟩))
      (k2_pay1 (F := Ideal)) (fun n h => xb2 V c ⟨n, h⟩) (fun n h => oa2 V c ⟨n, h⟩) (fun n => n / 160 * 1024) (fun n => n / 8 % 20 * 512)
      8 t.val _ _ (by decide) t.isLt (fun n h e => congrArg Prod.fst (acc2_first V c ⟨n, h⟩ e))
      (fun n h e => congrArg Prod.fst (acc2_next V c ⟨n + 1, h⟩ e)) (fun p q => zeroBlk_apply _ _)
      (fun n h s p q => mmAcc_apply rfl _ s _ _ _ _ p q) (fun n h p l => (blk2 V c ⟨n, h⟩ p l 0).1)
      (fun n h l q => (blk2 V c ⟨n, h⟩ l l q).2.1) (fun j hj => by omega) p q,
    acc_dot (V c main_v86) (V c main_v98) (fun n h => (acc2 V c n h).2) (fun n h s => k2_pay5 (xb2 V c ⟨n, h⟩) s (ob2 V c ⟨n, h⟩))
      (k2_pay2 (F := Ideal)) (fun n h => xb2 V c ⟨n, h⟩) (fun n h => ob2 V c ⟨n, h⟩) (fun n => n / 160 * 1024) (fun n => n / 8 % 20 * 512)
      8 t.val _ _ (by decide) t.isLt (fun n h e => congrArg Prod.snd (acc2_first V c ⟨n, h⟩ e))
      (fun n h e => congrArg Prod.snd (acc2_next V c ⟨n + 1, h⟩ e)) (fun p q => zeroBlk_apply _ _)
      (fun n h s p q => mmAcc_apply rfl _ s _ _ _ _ p q) (fun n h p l => (blk2 V c ⟨n, h⟩ p l 0).1)
      (fun n h l q => (blk2 V c ⟨n, h⟩ l l q).2.2.1) (fun j hj => by omega) p q⟩

/-- At a last step of the contraction the stored block is its block of the layer. -/
theorem flushed2_eq (c : Dev nD) (t : Fin cfg2.N) (hf : (cfg2.win 7).flush t = true) :
    (dat2 (F := Ideal) V c).flushed 7 t = ((cfg2.win 7).blk t).view.read (Elt Ideal)
      (Cert.Spec.layerMM 4096 8192 10240 (V c main_v86) (V c main_v92) (V c main_v98) (V c main_v101) (V c main_v104) (V c main_v107) (V c main_v110)) := by
  have ht : t.val % 8 = 7 := (flush2_7 t).mp hf
  show (cfg2.win 7).cut (grid2.coords t) ((dat2 (F := Ideal) V c).after 7 t) = _
  rw [after2_7]
  funext y
  obtain ⟨p, q, rfl⟩ : ∃ (p : Fin 1024) (q : Fin 512), y = ix2 p q := ⟨y 0, y 1, eq_ix2 y⟩
  obtain ⟨hA, hB⟩ := acc2_apply V c t p q
  obtain ⟨-, -, -, r0, r1, r2, r3, i0, i1⟩ := blk2 V c t p p q
  rw [ht] at hA hB
  show out2 V c t (ix2 p q) = Cert.Spec.layerMM 4096 8192 10240 _ _ _ _ _ _ _ (((cfg2.win 7).blk t).view.emb (ix2 p q))
  rw [layerMM_ext, i0, i1, r0, r1, r2, r3, ← hA, ← hB]
  exact polyBlk_apply _ _ _ _ _ _ _ _ _ p q

/-- The output's blocks at the last steps tile the array. -/
theorem cover2 (i : S4096x10240.Idx) : ∃ t : Fin cfg2.N, (cfg2.win 7).flush t = true ∧ i ∈ ((cfg2.win 7).blk t).view.set := by
  have h0 : (i 0).val < 4096 := (i 0).isLt
  have h1 : (i 1).val < 10240 := (i 1).isLt
  obtain ⟨t, ht⟩ : ∃ t : Fin cfg2.N, t.val = ((i 0).val / 1024 * 20 + (i 1).val / 512) * 8 + 7 :=
    ⟨⟨_, lt_of_lt_of_eq (by omega) N_2.symm⟩, rfl⟩
  have e := idx2 t
  refine ⟨t, (flush2_7 t).mpr (by omega), ?_⟩
  show i ∈ ((View.whole main_v111).slice (win2_7.rect t)).set
  rw [View.set_slice_whole, Rect.mem_set_unit]
  exact Fin.forall_fin_two.mpr
    ⟨by show win2_7.index t (0 : Fin 2) * 1024 ≤ (i 0).val ∧ (i 0).val < win2_7.index t (0 : Fin 2) * 1024 + 1024; omega,
      by show win2_7.index t (1 : Fin 2) * 512 ≤ (i 1).val ∧ (i 1).val < win2_7.index t (1 : Fin 2) * 512 + 512; omega⟩

theorem arrAt2_out (c : Dev nD) :
    (dat2 (F := Ideal) V c).arrAt 7 cfg2.N
      = Cert.Spec.layerMM 4096 8192 10240 (V c main_v86) (V c main_v92) (V c main_v98) (V c main_v101) (V c main_v104) (V c main_v107) (V c main_v110) :=
  (dat2 (F := Ideal) V c).arrAt_eq_of_cover 7 _ (fun t hf => flushed2_eq V c t hf) cover2

end Cert.KernelIdeal.Hand

end
-- ==== Proof.Ref.Stages.lean ====
import proofs.«428350_j82789789597763_3_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What the shapes of a layer with B rows and D output columns satisfy. -/
structure LayerFacts (B D : Nat) : Prop where
  red : (⟨2, ![D, 16]⟩ : Shape).ReducesTo [1] ⟨1, ![D]⟩
  b0 : S_.BroadcastsInDim ⟨1, ![D]⟩ ![]
  b1 : (⟨1, ![D]⟩ : Shape).BroadcastsInDim ⟨2, ![D, 1]⟩ ![0]
  b2 : (⟨2, ![D, 1]⟩ : Shape).BroadcastsInDim ⟨2, ![D, 16]⟩ ![0, 1]
  sl : ∀ o : Fin 4, (⟨2, ![D, 4]⟩ : Shape).Slices ![0, o] ⟨2, ![D, 1]⟩
  sc : (⟨2, ![D, 1]⟩ : Shape).ShapeCasts ⟨1, ![D]⟩
  b3 : (⟨1, ![D]⟩ : Shape).BroadcastsInDim ⟨2, ![1, D]⟩ ![1]
  b4 : (⟨2, ![1, D]⟩ : Shape).BroadcastsInDim ⟨2, ![B, D]⟩ ![0, 1]

theorem facts8192 : LayerFacts 4096 8192 := by constructor <;> decide
theorem facts10240 : LayerFacts 4096 10240 := by constructor <;> decide

def tab16x4 : FVec F S16x4 .f32 := fun i => FloatOps.ofBits .f32 (lit0 (S16x4.rowMajor i))

section Layer
variable {B N D : Nat} (hf : LayerFacts B D)

/-- max(−∞, the maximum of each row of 16), repeated along the row. -/
def rowMaxB (w : FVec F ⟨2, ![D, 16]⟩ .f32) : FVec F ⟨2, ![D, 16]⟩ .f32 :=
  broadcastInDim (s := ⟨2, ![D, 1]⟩) ⟨2, ![D, 16]⟩ ![0, 1] hf.b2
    (broadcastInDim (s := ⟨1, ![D]⟩) ⟨2, ![D, 1]⟩ ![0] hf.b1
      (maximumf (broadcastInDim (s := S_) ⟨1, ![D]⟩ ![] hf.b0 (constant S_ .f32 0xFF800000#32))
        (Host.reduce FloatOps.maximumf w (constant S_ .f32 0xFF800000#32) hf.red h_S_)))

/-- The softmax over each row of 16, multiplied by the 16 × 4 table. -/
def coefTerm (w : FVec F ⟨2, ![D, 16]⟩ .f32) : FVec F ⟨2, ![D, 4]⟩ .f32 :=
  let e := Host.exp (subf w (rowMaxB hf w))
  Host.dotGeneral (DotDims.plain D 16 4) none
    (Host.divf e (broadcastInDim (s := ⟨2, ![D, 1]⟩) ⟨2, ![D, 16]⟩ ![0, 1] hf.b2
      (broadcastInDim (s := ⟨1, ![D]⟩) ⟨2, ![D, 1]⟩ ![0] hf.b1
        (Host.reduceAdd e (constant S_ .f32 0x00000000#32) hf.red h_S_))))
    tab16x4

/-- ix + n where ix < 0 and ix elsewhere, laid out as a [D, 1] column. -/
def wrapIdx (n : BitVec 32) (ix : IVec ⟨1, ![D]⟩ 32) : IVec ⟨2, ![D, 1]⟩ 32 :=
  broadcastInDim (s := ⟨1, ![D]⟩) ⟨2, ![D, 1]⟩ ![0] hf.b1
    (select (cmpi .slt ix (broadcastInDim (s := S_) ⟨1, ![D]⟩ ![] hf.b0 (constantI S_ 32 0#32)))
      (addi ix (broadcastInDim (s := S_) ⟨1, ![D]⟩ ![] hf.b0 (constantI S_ 32 n))) ix)

/-- Column o of the [D, 4] coefficients, repeated down B rows. -/
def coefCol (coef : FVec F ⟨2, ![D, 4]⟩ .f32) (o : Fin 4) : FVec F ⟨2, ![B, D]⟩ .f32 :=
  broadcastInDim (s := ⟨2, ![1, D]⟩) ⟨2, ![B, D]⟩ ![0, 1] hf.b4
    (broadcastInDim (s := ⟨1, ![D]⟩) ⟨2, ![1, D]⟩ ![1] hf.b3
      (shapeCast ⟨1, ![D]⟩ (extractStridedSlice (s := ⟨2, ![D, 4]⟩) ⟨2, ![D, 1]⟩ ![0, o] coef (hf.sl o)) hf.sc))

/-- The gather numbers of x[:, idx] for x of shape [B, N] and idx of shape [D, 1]. -/
abbrev colDims (B N D : Nat)
    (wf : GatherDims.WF ⟨2, ![B, N]⟩ ⟨2, ![D, 1]⟩ ⟨2, ![B, D]⟩ [0] [1] [] [1] [] 1 ![B, 1]) :
    GatherDims ⟨2, ![B, N]⟩ ⟨2, ![D, 1]⟩ ⟨2, ![B, D]⟩ :=
  ⟨[0], [1], [], [], [1], 1, ![B, 1], wf⟩

/-- c0 + c1·a + c2·b + c3·(a·b), summed left to right, with a = x[:, ia] and b = x[:, ib]. -/
def layerTerm (wf : GatherDims.WF ⟨2, ![B, N]⟩ ⟨2, ![D, 1]⟩ ⟨2, ![B, D]⟩ [0] [1] [] [1] [] 1 ![B, 1]) (n : BitVec 32)
    (coef : FVec F ⟨2, ![D, 4]⟩ .f32) (x : FVec F ⟨2, ![B, N]⟩ .f32) (ia ib : IVec ⟨1, ![D]⟩ 32) :
    FVec F ⟨2, ![B, D]⟩ .f32 :=
  let a := Host.gather (colDims B N D wf) x (wrapIdx hf n ia)
  let b := Host.gather (colDims B N D wf) x (wrapIdx hf n ib)
  addf (addf (addf (coefCol hf coef 0) (mulf (coefCol hf coef 1) a)) (mulf (coefCol hf coef 2) b))
    (mulf (coefCol hf coef 3) (mulf a b))

end Layer

def coefTerm8192 (w : FVec F S8192x16 .f32) : FVec F S8192x4 .f32 := coefTerm facts8192 w
def coefTerm10240 (w : FVec F S10240x16 .f32) : FVec F S10240x4 .f32 := coefTerm facts10240 w

def layerTerm1024 (coef : FVec F S8192x4 .f32) (x : FVec F S4096x1024 .f32) (ia ib : IVec S8192 32) :
    FVec F S4096x8192 .f32 :=
  layerTerm facts8192 gather_S4096x1024_S8192x1_S4096x8192_0_1_n_n_1_1_40961_wf 1024#32 coef x ia ib

def layerTerm8192 (coef : FVec F S8192x4 .f32) (x : FVec F S4096x8192 .f32) (ia ib : IVec S8192 32) :
    FVec F S4096x8192 .f32 :=
  layerTerm facts8192 gather_S4096x8192_S8192x1_S4096x8192_0_1_n_n_1_1_40961_wf 8192#32 coef x ia ib

def layerTerm8192x10240 (coef : FVec F S10240x4 .f32) (x : FVec F S4096x8192 .f32) (ia ib : IVec S10240 32) :
    FVec F S4096x10240 .f32 :=
  layerTerm facts10240 gather_S4096x8192_S10240x1_S4096x10240_0_1_n_n_1_1_40961_wf 8192#32 coef x ia ib

/-- The sum of each block of 1024 consecutive columns, divided by 30. -/
def tailTerm (y : FVec F S4096x10240 .f32) : FVec F S4096x10 .f32 :=
  Host.divf
    (Host.reduceAdd (shapeCast S4096x10x1024 y shapeCasts_S4096x10240_S4096x10x1024) (constant S_ .f32 0x00000000#32)
      reducesTo_S4096x10x1024_S4096x10_d2 h_S_)
    (broadcastInDim (s := S_) S4096x10 ![] bcast_S_S4096x10 (constant S_ .f32 0x41F00000#32))

@[irreducible] def val1 (V : Valuation τ sig (Elt F)) : Valuation τ sig (Elt F) := after ops0 V
@[irreducible] def val2 (V : Valuation τ sig (Elt F)) : Valuation τ sig (Elt F) := after ops1 (val1 V)
@[irreducible] def val3 (V : Valuation τ sig (Elt F)) : Valuation τ sig (Elt F) := after ops2 (val2 V)

theorem after_ops (V : Valuation τ sig (Elt F)) : after ops V = val3 V := by
  unfold val3 val2 val1
  exact (after_append ops0 (ops1 ++ ops2) V).trans (after_append ops1 ops2 _)

theorem val1_keep (V : Valuation τ sig (Elt F)) (r : Ref sig .tc) (h : r.idx.val < 10) :
    val1 V (no_index (Proc.devRef .tc r)) = V (Proc.devRef .tc r) := by
  unfold val1; exact (keep V r).1 h
theorem val2_keep (V : Valuation τ sig (Elt F)) (r : Ref sig .tc) (h : r.idx.val < 70) :
    val2 V (no_index (Proc.devRef .tc r)) = val1 V (Proc.devRef .tc r) := by
  unfold val2; exact (keep _ r).2.1 h
theorem val3_keep (V : Valuation τ sig (Elt F)) (r : Ref sig .tc) (h : r.idx.val < 130) :
    val3 V (no_index (Proc.devRef .tc r)) = val2 V (Proc.devRef .tc r) := by
  unfold val3; exact (keep _ r).2.2 h

set_option maxRecDepth 8192 in
set_option maxHeartbeats 2000000 in
/-- After operations 1 to 60: the table, the first layer, and the start of the second layer's row maximum. -/
theorem val1_at (V : Valuation τ sig (Elt F)) :
    val1 V (Proc.devRef .tc main_cst) = tab16x4
    ∧ val1 V (Proc.devRef .tc main_cst_7) = constant S_ .f32 0xFF800000#32
    ∧ val1 V (Proc.devRef .tc main_v49)
        = Host.reduce FloatOps.maximumf (V (Proc.devRef .tc main_arg2)) (constant S_ .f32 0xFF800000#32)
            reducesTo_S8192x16_S8192_d1 h_S_
    ∧ val1 V (Proc.devRef .tc main_v11) = coefTerm8192 (V (Proc.devRef .tc main_arg1))
    ∧ val1 V (Proc.devRef .tc main_v48)
        = layerTerm1024 (coefTerm8192 (V (Proc.devRef .tc main_arg1))) (V (Proc.devRef .tc main_arg0))
            (V (Proc.devRef .tc main_arg4)) (V (Proc.devRef .tc main_arg5)) := by
  unfold val1
  simp only [ops0]
  refine ⟨?_, ?_, ?_, ?_, ?_⟩
  all_goals after_results_simp
  all_goals rfl

set_option maxRecDepth 8192 in
set_option maxHeartbeats 2000000 in
/-- After operations 61 to 120: the second layer, and the third layer's row maximum. -/
theorem val2_at (V : Valuation τ sig (Elt F)) :
    val2 V (Proc.devRef .tc main_v60) = coefTerm8192 (V (Proc.devRef .tc main_arg2))
    ∧ val2 V (Proc.devRef .tc main_v97)
        = layerTerm8192 (coefTerm8192 (V (Proc.devRef .tc main_arg2))) (val1 V (Proc.devRef .tc main_v48))
            (V (Proc.devRef .tc main_arg6)) (V (Proc.devRef .tc main_arg7))
    ∧ val2 V (Proc.devRef .tc main_v102) = rowMaxB facts10240 (V (Proc.devRef .tc main_arg3)) := by
  unfold val2
  simp only [ops1]
  refine ⟨?_, ?_, ?_⟩
  all_goals after_results_simp
  all_goals simp (disch := decide) only [(val1_at V).1, (val1_at V).2.1, (val1_at V).2.2.1, val1_keep]
  all_goals rfl

set_option maxRecDepth 8192 in
set_option maxHeartbeats 2000000 in
/-- After operations 121 to 175: the third layer and the result. -/
theorem val3_at (V : Valuation τ sig (Elt F)) :
    val3 V (Proc.devRef .tc main_v109) = coefTerm10240 (V (Proc.devRef .tc main_arg3))
    ∧ val3 V (Proc.devRef .tc main_v146)
        = layerTerm8192x10240 (coefTerm10240 (V (Proc.devRef .tc main_arg3))) (val2 V (Proc.devRef .tc main_v97))
            (V (Proc.devRef .tc main_arg8)) (V (Proc.devRef .tc main_arg9))
    ∧ val3 V (Proc.devRef .tc main_v150) = tailTerm (layerTerm8192x10240 (coefTerm10240 (V (Proc.devRef .tc main_arg3)))
        (val2 V (Proc.devRef .tc main_v97)) (V (Proc.devRef .tc main_arg8)) (V (Proc.devRef .tc main_arg9))) := by
  unfold val3
  simp only [ops2]
  refine ⟨?_, ?_, ?_⟩
  all_goals after_results_simp
  all_goals simp (disch := decide) only [(val2_at V).2.2, val2_keep, (val1_at V).1, val1_keep]
  all_goals rfl

theorem W_val (m : (ℓ : Loc nD τ sig) → Buf (Elt F) ℓ) (c : Dev nD) (r : Ref sig .tc) :
    W m c (Proc.devRef .tc r) = val3 (launchContents m c) (Proc.devRef .tc r) :=
  congrFun (after_ops (launchContents m c)) _

theorem W_val2 (m : (ℓ : Loc nD τ sig) → Buf (Elt F) ℓ) (c : Dev nD) (r : Ref sig .tc) (h : r.idx.val < 130) :
    W m c (Proc.devRef .tc r) = val2 (launchContents m c) (Proc.devRef .tc r) :=
  (W_val m c r).trans (val3_keep _ r h)

theorem W_val1 (m : (ℓ : Loc nD τ sig) → Buf (Elt F) ℓ) (c : Dev nD) (r : Ref sig .tc) (h : r.idx.val < 70) :
    W m c (Proc.devRef .tc r) = val1 (launchContents m c) (Proc.devRef .tc r) :=
  (W_val2 m c r (by omega)).trans (val2_keep _ r h)

theorem W_v11 (m : (ℓ : Loc nD τ sig) → Buf (Elt F) ℓ) (c : Dev nD) :
    W m c (Proc.devRef .tc main_v11) = coefTerm8192 (m ((c.tc : Thread nD τ).loc main_arg1)) :=
  (W_val1 m c main_v11 (by decide)).trans (val1_at _).2.2.2.1

theorem W_v60 (m : (ℓ : Loc nD τ sig) → Buf (Elt F) ℓ) (c : Dev nD) :
    W m c (Proc.devRef .tc main_v60) = coefTerm8192 (m ((c.tc : Thread nD τ).loc main_arg2)) :=
  (W_val2 m c main_v60 (by decide)).trans (val2_at _).1

theorem W_v109 (m : (ℓ : Loc nD τ sig) → Buf (Elt F) ℓ) (c : Dev nD) :
    W m c (Proc.devRef .tc main_v109) = coefTerm10240 (m ((c.tc : Thread nD τ).loc main_arg3)) :=
  (W_val m c main_v109).trans (val3_at _).1

theorem W_v48 (m : (ℓ : Loc nD τ sig) → Buf (Elt F) ℓ) (c : Dev nD) :
    W m c (Proc.devRef .tc main_v48)
      = layerTerm1024 (W m c (Proc.devRef .tc main_v11)) (m ((c.tc : Thread nD τ).loc main_arg0))
          (m ((c.tc : Thread nD τ).loc main_arg4)) (m ((c.tc : Thread nD τ).loc main_arg5)) := by
  rw [W_v11 m c]
  exact (W_val1 m c main_v48 (by decide)).trans (val1_at _).2.2.2.2

theorem W_v97 (m : (ℓ : Loc nD τ sig) → Buf (Elt F) ℓ) (c : Dev nD) :
    W m c (Proc.devRef .tc main_v97)
      = layerTerm8192 (W m c (Proc.devRef .tc main_v60)) (W m c (Proc.devRef .tc main_v48))
          (m ((c.tc : Thread nD τ).loc main_arg6)) (m ((c.tc : Thread nD τ).loc main_arg7)) := by
  rw [W_v60 m c, W_val1 m c main_v48 (by decide)]
  exact (W_val2 m c main_v97 (by decide)).trans (val2_at _).2.1

theorem W_v146 (m : (ℓ : Loc nD τ sig) → Buf (Elt F) ℓ) (c : Dev nD) :
    W m c (Proc.devRef .tc main_v146)
      = layerTerm8192x10240 (W m c (Proc.devRef .tc main_v109)) (W m c (Proc.devRef .tc main_v97))
          (m ((c.tc : Thread nD τ).loc main_arg8)) (m ((c.tc : Thread nD τ).loc main_arg9)) := by
  rw [W_v109 m c, W_val2 m c main_v97 (by decide)]
  exact (W_val m c main_v146).trans (val3_at _).2.1

theorem W_v150 (m : (ℓ : Loc nD τ sig) → Buf (Elt F) ℓ) (c : Dev nD) :
    W m c (Proc.devRef .tc main_v150) = tailTerm (W m c (Proc.devRef .tc main_v146)) :=
  ((W_val m c main_v150).trans (val3_at _).2.2).trans
    (congrArg tailTerm ((W_val m c main_v146).trans (val3_at _).2.1).symm)

end Cert.ReferenceIdeal.Hand

end
-- ==== Proof.Ref.Layer.lean ====
import proofs.«428350_j82789789597763_3_alg».proof.Proof.Ref.Stages
import proofs.«428350_j82789789597763_3_alg».proof.Proof.Spec
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Hand

open Cert.ReferenceIdeal Cert.ReferenceIdeal.Gen Idealize.ShloMosaic Idealize.ShloMosaic.ValueIdx

variable {α : Type} {B N D : Nat} (hf : LayerFacts B D)

theorem val_or_zero {D : Nat} (q : Fin D) : q.val = if D = 1 then 0 else q.val := by
  have := q.isLt
  split <;> omega

/-- (coefCol coef o)(r, q) = coef(q, o). -/
theorem coefCol_apply (coef : FVec Ideal ⟨2, ![D, 4]⟩ .f32) (o : Fin 4) (r : Fin B) (q : Fin D) :
    coefCol (F := Ideal) hf coef o (ix2 r q) = coef (ix2 q o) := by
  unfold coefCol
  rw [broadcastInDim_apply ![0, 1] hf.b4 _ (ix2 r q) (ix2 (0 : Fin 1) q) (fun a => by
      match a with
      | ⟨0, _⟩ => rfl
      | ⟨1, _⟩ => exact val_or_zero q),
    broadcastInDim_apply ![1] hf.b3 _ (ix2 (0 : Fin 1) q) (ix1 q) (fun a => by
      match a with
      | ⟨0, _⟩ => exact val_or_zero q),
    shapeCast_apply _ hf.sc (ix1 q) (ix2 q (0 : Fin 1)) (by
      rw [Shape.rowMajor_val_two, Shape.rowMajor_val_one]
      show q.val * 1 + 0 = q.val
      omega),
    slice2_axis1_apply o.val coef (hf.sl o) q (0 : Fin 1) o rfl]

/-- For w ≥ 0 as a signed integer the test w < 0 gives the bit 0. -/
theorem cmpi_slt_zero_of_nonneg (w : BitVec 32) (h : 0 ≤ w.toInt) : IntOp.cmpi .slt w 0#32 = 0#1 := by
  have h0 : (0#32 : BitVec 32).toInt = 0 := by decide
  have hf : w.slt 0#32 = false := by
    unfold BitVec.slt
    rw [h0]
    exact decide_eq_false (by omega)
  show BitVec.ofBool (w.slt 0#32) = 0#1
  rw [hf]
  rfl

/-- For ix(q) ≥ 0 the wrapped start index at (q, 0) is ix(q). -/
theorem wrap_nonneg_apply (n : BitVec 32) (ix : IVec ⟨1, ![D]⟩ 32) (q : Fin D) (hq : 0 ≤ (ix (ix1 q)).toInt) :
    wrapIdx hf n ix (ix2 q (0 : Fin 1)) = ix (ix1 q) := by
  unfold wrapIdx
  rw [broadcastInDim_apply ![0] hf.b1 _ (ix2 q (0 : Fin 1)) (ix1 q) (fun a => by
      match a with
      | ⟨0, _⟩ => exact val_or_zero q), select_apply]
  show Scalar.select (IntOp.cmpi .slt (ix (ix1 q)) (broadcastInDim ⟨1, ![D]⟩ ![] hf.b0 (constantI ⟨0, ![]⟩ 32 0#32) (ix1 q))) _ _ = _
  rw [broadcastInDim_scalar_apply]
  show Scalar.select (IntOp.cmpi .slt (ix (ix1 q)) 0#32) _ _ = _
  rw [cmpi_slt_zero_of_nonneg _ hq, select_zero]

/-- x[:, idx](r, q) = x(r, k) with k the signed value of idx(q, 0) clamped into [0, N − 1]. -/
theorem gather_cols_apply {B N D w : Nat} (hN : 0 < N)
    (wf : GatherDims.WF ⟨2, ![B, N]⟩ ⟨2, ![D, 1]⟩ ⟨2, ![B, D]⟩ [0] [1] [] [1] [] 1 ![B, 1])
    (x : (⟨2, ![B, N]⟩ : Shape).Idx → α) (idx : IVec ⟨2, ![D, 1]⟩ w) (r : Fin B) (q : Fin D) :
    Host.gather (colDims B N D wf) x idx (ix2 r q)
      = x (ix2 r ⟨min (idx (ix2 q (0 : Fin 1))).toInt.toNat (N - 1), by omega⟩) := by
  unfold Host.gather
  congr 1
  funext a
  refine Fin.ext ?_
  match a with
  | ⟨0, _⟩ =>
    show (colDims B N D wf).start (ix2 r q) idx 0 + (colDims B N D wf).batchCoord (ix2 r q) 0
      + (colDims B N D wf).offCoord (ix2 r q) 0 = r.val
    have hs : (colDims B N D wf).start (ix2 r q) idx 0 = 0 := by
      unfold GatherDims.start
      rw [dif_neg (fun h => absurd (List.mem_singleton.mp h) (show ¬ (0 : Fin 2) = 1 by decide))]
    have hk : (0 : Fin 2) ∈ (colDims B N D wf).sKept :=
      ((colDims B N D wf).mem_sKept 0).mpr ⟨fun h => absurd (List.mem_singleton.mp h) (show ¬ (0 : Fin 2) = 1 by decide), List.not_mem_nil⟩
    rw [hs, GatherDims.batchCoord_eq_zero _ _ _ List.not_mem_nil]
    unfold GatherDims.offCoord
    rw [dif_pos hk]
    simp only [Nat.zero_add]
    rfl
  | ⟨1, _⟩ =>
    show (colDims B N D wf).start (ix2 r q) idx 1 + (colDims B N D wf).batchCoord (ix2 r q) 1
      + (colDims B N D wf).offCoord (ix2 r q) 1 = min (idx (ix2 q (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims B N D wf).startIndexMap from List.mem_singleton.mpr rfl)]
    have hsi : (colDims B N D wf).siIdx (ix2 r q) ⟨List.idxOf (1 : Fin 2) (colDims B N D wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

/-- With ix(q) ≥ 0 the gathered column is col N (ix(q)). -/
theorem gather_wrap_apply (hN : 0 < N)
    (wf : GatherDims.WF ⟨2, ![B, N]⟩ ⟨2, ![D, 1]⟩ ⟨2, ![B, D]⟩ [0] [1] [] [1] [] 1 ![B, 1])
    (x : (⟨2, ![B, N]⟩ : Shape).Idx → α) (n : BitVec 32) (ix : IVec ⟨1, ![D]⟩ 32) (r : Fin B) (q : Fin D)
    (hq : 0 ≤ (ix (ix1 q)).toInt) :
    Host.gather (colDims B N D wf) x (wrapIdx hf n ix) (ix2 r q) = x (ix2 r (Cert.Spec.col N hN (ix (ix1 q)))) := by
  rw [gather_cols_apply hN]
  exact congrArg (fun k => x (ix2 r k)) (Fin.ext (by
    show min (BitVec.toInt _).toNat (N - 1) = min (ix (ix1 q)).toInt.toNat (N - 1)
    rw [wrap_nonneg_apply hf n ix q hq]))

/-- Entry (r, q) of a layer is poly of the four coefficients of q at x(r, col (ia q)) and x(r, col (ib q)). -/
theorem layerTerm_eq (hN : 0 < N)
    (wf : GatherDims.WF ⟨2, ![B, N]⟩ ⟨2, ![D, 1]⟩ ⟨2, ![B, D]⟩ [0] [1] [] [1] [] 1 ![B, 1]) (n : BitVec 32)
    (coef : FVec Ideal ⟨2, ![D, 4]⟩ .f32) (x : FVec Ideal ⟨2, ![B, N]⟩ .f32) (ia ib : IVec ⟨1, ![D]⟩ 32)
    (ha : ∀ j : Fin D, 0 ≤ (ia (ix1 j)).toInt) (hb : ∀ j : Fin D, 0 ≤ (ib (ix1 j)).toInt) :
    layerTerm (F := Ideal) hf wf n coef x ia ib = Cert.Spec.layerG B N D hN x coef ia ib := by
  funext i
  obtain ⟨r, q, rfl⟩ : ∃ r q, i = ix2 r q := ⟨i 0, i 1, eq_ix2 i⟩
  unfold layerTerm Cert.Spec.layerG Cert.Spec.poly
  simp only [addf_apply, mulf_apply]
  rw [coefCol_apply, coefCol_apply, coefCol_apply, coefCol_apply, gather_wrap_apply hf hN wf x n ia r q (ha q),
    gather_wrap_apply hf hN wf x n ib r q (hb q)]
  rfl

theorem layerTerm1024_eq (coef : FVec Ideal S8192x4 .f32) (x : FVec Ideal S4096x1024 .f32) (ia ib : IVec S8192 32)
    (ha : ∀ j : Fin 8192, 0 ≤ (ia (ix1 j)).toInt) (hb : ∀ j : Fin 8192, 0 ≤ (ib (ix1 j)).toInt) :
    layerTerm1024 (F := Ideal) coef x ia ib = Cert.Spec.layerG 4096 1024 8192 (by decide) x coef ia ib :=
  layerTerm_eq facts8192 _ _ _ coef x ia ib ha hb

theorem layerTerm8192_eq (coef : FVec Ideal S8192x4 .f32) (x : FVec Ideal S4096x8192 .f32) (ia ib : IVec S8192 32)
    (ha : ∀ j : Fin 8192, 0 ≤ (ia (ix1 j)).toInt) (hb : ∀ j : Fin 8192, 0 ≤ (ib (ix1 j)).toInt) :
    layerTerm8192 (F := Ideal) coef x ia ib = Cert.Spec.layerG 4096 8192 8192 (by decide) x coef ia ib :=
  layerTerm_eq facts8192 _ _ _ coef x ia ib ha hb

theorem layerTerm8192x10240_eq (coef : FVec Ideal S10240x4 .f32) (x : FVec Ideal S4096x8192 .f32)
    (ia ib : IVec S10240 32) (ha : ∀ j : Fin 10240, 0 ≤ (ia (ix1 j)).toInt)
    (hb : ∀ j : Fin 10240, 0 ≤ (ib (ix1 j)).toInt) :
    layerTerm8192x10240 (F := Ideal) coef x ia ib = Cert.Spec.layerG 4096 8192 10240 (by decide) x coef ia ib :=
  layerTerm_eq facts10240 _ _ _ coef x ia ib ha hb

end Cert.ReferenceIdeal.Hand

end
-- ==== Proof.Bridge.Core.lean ====
import proofs.«428350_j82789789597763_3_alg».proof.Proof.Spec

-- A product with a one-hot selector column has one non-zero term: 0 · y = 0 for every extended real y.

noncomputable section

open scoped BigOperators

namespace Cert.Spec

open Idealize.ShloMosaic Idealize.ShloMosaic.ValueIdx

theorem layerMM_eq_layerG (B Din Dout : ℕ) (hD : 0 < Din) (x : (⟨2, ![B, Din]⟩ : Shape).Idx → EReal)
    (oa ob : (⟨2, ![Din, Dout]⟩ : Shape).Idx → EReal) (c0 c1 c2 c3 : (⟨2, ![1, Dout]⟩ : Shape).Idx → EReal)
    (coef : (⟨2, ![Dout, 4]⟩ : Shape).Idx → EReal) (ia ib : (⟨1, ![Dout]⟩ : Shape).Idx → BitVec 32)
    (hoa : ∀ (k : Fin Din) (j : Fin Dout), oa (ix2 k j) = if k = col Din hD (ia (ix1 j)) then 1 else 0)
    (hob : ∀ (k : Fin Din) (j : Fin Dout), ob (ix2 k j) = if k = col Din hD (ib (ix1 j)) then 1 else 0)
    (h0 : ∀ j : Fin Dout, c0 (ix2 (n0 := 1) 0 j) = coef (ix2 (n1 := 4) j 0))
    (h1 : ∀ j : Fin Dout, c1 (ix2 (n0 := 1) 0 j) = coef (ix2 (n1 := 4) j 1))
    (h2 : ∀ j : Fin Dout, c2 (ix2 (n0 := 1) 0 j) = coef (ix2 (n1 := 4) j 2))
    (h3 : ∀ j : Fin Dout, c3 (ix2 (n0 := 1) 0 j) = coef (ix2 (n1 := 4) j 3)) :
    layerMM B Din Dout x oa ob c0 c1 c2 c3 = layerG B Din Dout hD x coef ia ib := by
  funext i
  obtain ⟨r, j, rfl⟩ : ∃ (r : Fin B) (j : Fin Dout), i = ix2 r j := ⟨i 0, i 1, eq_ix2 i⟩

  have hsel : ∀ (o : (⟨2, ![Din, Dout]⟩ : Shape).Idx → EReal) (c : Fin Din),
      (∀ k : Fin Din, o (ix2 k j) = if k = c then 1 else 0) →
      (∑ k : Fin Din, x (ix2 (n0 := B) (n1 := Din) r k) * o (ix2 (n0 := Din) (n1 := Dout) k j))
        = x (ix2 (n0 := B) (n1 := Din) r c) := by
    intro o c ho
    rw [Finset.sum_eq_single c]
    · rw [ho c, if_pos rfl, mul_one]
    · intro k _ hk
      rw [ho k, if_neg hk, mul_zero]
    · intro hc
      exact absurd (Finset.mem_univ c) hc
  show poly (c0 (ix2 (n0 := 1) (n1 := Dout) 0 j)) (c1 (ix2 (n0 := 1) (n1 := Dout) 0 j))
      (c2 (ix2 (n0 := 1) (n1 := Dout) 0 j)) (c3 (ix2 (n0 := 1) (n1 := Dout) 0 j))
      (∑ k : Fin Din, x (ix2 (n0 := B) (n1 := Din) r k) * oa (ix2 (n0 := Din) (n1 := Dout) k j))
      (∑ k : Fin Din, x (ix2 (n0 := B) (n1 := Din) r k) * ob (ix2 (n0 := Din) (n1 := Dout) k j))
    = poly (coef (ix2 (n0 := Dout) (n1 := 4) j 0)) (coef (ix2 (n0 := Dout) (n1 := 4) j 1))
      (coef (ix2 (n0 := Dout) (n1 := 4) j 2)) (coef (ix2 (n0 := Dout) (n1 := 4) j 3))
      (x (ix2 (n0 := B) (n1 := Din) r (col Din hD (ia (ix1 (n := Dout) j)))))
      (x (ix2 (n0 := B) (n1 := Din) r (col Din hD (ib (ix1 (n := Dout) j)))))
  rw [h0 j, h1 j, h2 j, h3 j,
    hsel oa (col Din hD (ia (ix1 j))) (fun k => hoa k j),
    hsel ob (col Din hD (ib (ix1 j))) (fun k => hob k j)]

end Cert.Spec

end
-- ==== Proof.Bridge.Pre.lean ====
import proofs.«428350_j82789789597763_3_alg».proof.Defs
import proofs.«428350_j82789789597763_3_alg».proof.Proof.Gen.Pre_finite_inputs
import Idealize.ShloMosaic.Lib.ReduceAll
import Idealize.ShloMosaic.Lib.StableHlo.Predicate
import Idealize.ShloMosaic.Lib.ValueIdx

-- From the precondition: every index input is entrywise non-negative.

namespace Cert.Bridge

open Idealize.ShloMosaic Idealize.ShloMosaic.ValueIdx
open Cert.Pre_finite_inputs

theorem nonneg_of_all {s : Shape} {axes : List (Fin s.rank)} (a : IVec s 32)
    (hb : S_.BroadcastsInDim s (![] : Fin 0 → Fin s.rank)) (hr : s.ReducesTo axes S_) (h0 : 0 < S_.numel)
    (e : Host.reduce IntOp.andi (cmpi .sge a (broadcastInDim s ![] hb (constantI S_ 32 0#32))) (constantI S_ 1 1#1)
      hr h0 ix0 = 1#1)
    (i : s.Idx) : 0 ≤ (a i).toInt := by

  haveI : Subsingleton S_.Idx := ⟨fun a b => funext fun d => d.elim0⟩

  have hc : IntOp.cmpi .sge (a i) 0#32 = 1#1 :=
    Host.reduce_andi_all (cmpi .sge a (broadcastInDim s ![] hb (constantI S_ 32 0#32))) (constantI S_ 1 1#1)
      hr h0 ix0 e i
  have hz : (0#32 : BitVec 32).toInt = 0 := by decide
  have hle := IntOp.cmpi_sge.1 hc
  rw [hz] at hle
  exact hle

theorem idx_nonneg {F : FTy → Type} [FloatOps F] [hP : Cert.Pre_finite_inputs.Facts]
    (a0 : FVec F S4096x1024 .f32) (a1 a2 : FVec F S8192x16 .f32) (a3 : FVec F S10240x16 .f32)
    (a4 a5 a6 a7 : IVec S8192 32) (a8 a9 : IVec S10240 32)
    (h : Cert.Pre_finite_inputs.fn (F := F) a0 a1 a2 a3 a4 a5 a6 a7 a8 a9 = fun _ => 1#1) :
    (∀ j : Fin 8192, 0 ≤ (a4 (ix1 j)).toInt) ∧ (∀ j : Fin 8192, 0 ≤ (a5 (ix1 j)).toInt) ∧
    (∀ j : Fin 8192, 0 ≤ (a6 (ix1 j)).toInt) ∧ (∀ j : Fin 8192, 0 ≤ (a7 (ix1 j)).toInt) ∧
    (∀ j : Fin 10240, 0 ≤ (a8 (ix1 j)).toInt) ∧ (∀ j : Fin 10240, 0 ≤ (a9 (ix1 j)).toInt) := by

  have h1 : Cert.Pre_finite_inputs.fn (F := F) a0 a1 a2 a3 a4 a5 a6 a7 a8 a9 ix0 = 1#1 := congrFun h ix0
  obtain ⟨h1, e9⟩ := IntOp.andi_eq_one.1 h1
  obtain ⟨h1, e8⟩ := IntOp.andi_eq_one.1 h1
  obtain ⟨h1, e7⟩ := IntOp.andi_eq_one.1 h1
  obtain ⟨h1, e6⟩ := IntOp.andi_eq_one.1 h1
  obtain ⟨h1, e5⟩ := IntOp.andi_eq_one.1 h1
  obtain ⟨_, e4⟩ := IntOp.andi_eq_one.1 h1
  exact ⟨fun j => nonneg_of_all a4 _ _ _ e4 (ix1 j), fun j => nonneg_of_all a5 _ _ _ e5 (ix1 j),
    fun j => nonneg_of_all a6 _ _ _ e6 (ix1 j), fun j => nonneg_of_all a7 _ _ _ e7 (ix1 j),
    fun j => nonneg_of_all a8 _ _ _ e8 (ix1 j), fun j => nonneg_of_all a9 _ _ _ e9 (ix1 j)⟩

end Cert.Bridge
-- ==== Proof.Bridge.Final.lean ====
import proofs.«428350_j82789789597763_3_alg».proof.Defs
import proofs.«428350_j82789789597763_3_alg».proof.Proof.KI.Regs
import proofs.«428350_j82789789597763_3_alg».proof.Proof.KI.HostVal
import proofs.«428350_j82789789597763_3_alg».proof.Proof.KI.HostTerms
import proofs.«428350_j82789789597763_3_alg».proof.Proof.KI.R0Val
import proofs.«428350_j82789789597763_3_alg».proof.Proof.KI.R1Val
import proofs.«428350_j82789789597763_3_alg».proof.Proof.KI.R2Val
import proofs.«428350_j82789789597763_3_alg».proof.Proof.Ref.Stages
import proofs.«428350_j82789789597763_3_alg».proof.Proof.Ref.Layer
import proofs.«428350_j82789789597763_3_alg».proof.Proof.Bridge.Core
import proofs.«428350_j82789789597763_3_alg».proof.Proof.Bridge.Pre
import proofs.«428350_j82789789597763_3_alg».proof.Proof.Gen.Pre_finite_inputs

-- The value bridge: layer by layer the kernel program's arrays are the reference's layer terms, under one shared tail.
set_option maxRecDepth 16384

noncomputable section

namespace Cert.Bridge

open Idealize.ShloMosaic Idealize.ShloMosaic.TcCoe Idealize.SL.Sem Idealize.ShloMosaic.ValueIdx

theorem coef8192_same (w : FVec Ideal Cert.ReferenceIdeal.S8192x16 .f32) :
    Cert.KernelIdeal.Hand.coefK8192 w = Cert.ReferenceIdeal.Hand.coefTerm8192 (F := Ideal) w := rfl

theorem coef10240_same (w : FVec Ideal Cert.ReferenceIdeal.S10240x16 .f32) :
    Cert.KernelIdeal.Hand.coefK10240 w = Cert.ReferenceIdeal.Hand.coefTerm10240 (F := Ideal) w := rfl

theorem tail_same (y : FVec Ideal Cert.ReferenceIdeal.S4096x10240 .f32) :
    Cert.KernelIdeal.Hand.tailK y = Cert.ReferenceIdeal.Hand.tailTerm (F := Ideal) y := rfl

section Kernel

open Cert.KernelIdeal.Hand Cert.KernelIdeal.Gen

variable (m : (ℓ : Loc Cert.KernelIdeal.nD Cert.KernelIdeal.τ Cert.KernelIdeal.sig) → Buf (Elt Ideal) ℓ) (c : Dev Cert.KernelIdeal.nD)

theorem o0_eq :
    o0 (F := Ideal) m c
      = Cert.Spec.layerG 4096 1024 8192 (by decide) (m ((c.tc : Thread Cert.KernelIdeal.nD Cert.KernelIdeal.τ).loc Cert.KernelIdeal.main_arg0)) (V1 m c Cert.KernelIdeal.main_v11)
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  have e : o0 (F := Ideal) m c
      = Cert.Spec.layerMM 4096 1024 8192 (V5 m c Cert.KernelIdeal.main_v36) (V5 m c Cert.KernelIdeal.main_v42) (V5 m c Cert.KernelIdeal.main_v48)
          (V5 m c Cert.KernelIdeal.main_v51) (V5 m c Cert.KernelIdeal.main_v54) (V5 m c Cert.KernelIdeal.main_v57) (V5 m c Cert.KernelIdeal.main_v60) :=
    arrAt0_out (fun c b => Va5 m c b) c
  have hx : (V5 m c Cert.KernelIdeal.main_v36 : (⟨2, ![4096, 1024]⟩ : Shape).Idx → EReal) = (m ((c.tc : Thread Cert.KernelIdeal.nD Cert.KernelIdeal.τ).loc Cert.KernelIdeal.main_arg0)) := by
    funext i
    obtain ⟨r, k, rfl⟩ : ∃ (r : Fin 4096) (k : Fin 1024), i = ix2 r k := ⟨i 0, i 1, eq_ix2 i⟩
    exact v36_apply m c r k
  rw [e, hx]
  exact Cert.Spec.layerMM_eq_layerG 4096 1024 8192 (by decide) _ _ _ _ _ _ _ (V1 m c Cert.KernelIdeal.main_v11) _ _
    (v42_apply m c) (v48_apply m c) (v51_apply m c) (v54_apply m c) (v57_apply m c) (v60_apply m c)

theorem o1_eq :
    o1 (F := Ideal) m c
      = Cert.Spec.layerG 4096 8192 8192 (by decide) (o0 (F := Ideal) m c) (V1 m c Cert.KernelIdeal.main_v23)
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have e : o1 (F := Ideal) m c
      = Cert.Spec.layerMM 4096 8192 8192 (V11 m (outs m) c Cert.KernelIdeal.main_v61) (V11 m (outs m) c Cert.KernelIdeal.main_v67)
          (V11 m (outs m) c Cert.KernelIdeal.main_v73) (V11 m (outs m) c Cert.KernelIdeal.main_v76) (V11 m (outs m) c Cert.KernelIdeal.main_v79)
          (V11 m (outs m) c Cert.KernelIdeal.main_v82) (V11 m (outs m) c Cert.KernelIdeal.main_v85) := by
    rw [hV11 m c]; exact arrAt1_out (fun c b => Va11 m c b) c
  have hx : V11 m (outs m) c Cert.KernelIdeal.main_v61 = o0 (F := Ideal) m c :=
    (v61_eq m (outs m) c).trans ((outs_6 m Cert.KernelIdeal.main_v61 c).trans (Function.update_self _ _ _))
  rw [e, hx]
  exact Cert.Spec.layerMM_eq_layerG 4096 8192 8192 (by decide) _ _ _ _ _ _ _ (V1 m c Cert.KernelIdeal.main_v23) _ _
    (v67_apply m (outs m) c) (v73_apply m (outs m) c) (v76_apply m (outs m) c) (v79_apply m (outs m) c)
    (v82_apply m (outs m) c) (v85_apply m (outs m) c)

theorem o2_eq :
    o2 (F := Ideal) m c
      = Cert.Spec.layerG 4096 8192 10240 (by decide) (o1 (F := Ideal) m c) (V1 m c Cert.KernelIdeal.main_v35)
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  have e : o2 (F := Ideal) m c
      = Cert.Spec.layerMM 4096 8192 10240 (V17 m (outs m) c Cert.KernelIdeal.main_v86) (V17 m (outs m) c Cert.KernelIdeal.main_v92)
          (V17 m (outs m) c Cert.KernelIdeal.main_v98) (V17 m (outs m) c Cert.KernelIdeal.main_v101) (V17 m (outs m) c Cert.KernelIdeal.main_v104)
          (V17 m (outs m) c Cert.KernelIdeal.main_v107) (V17 m (outs m) c Cert.KernelIdeal.main_v110) := by
    rw [hV17 m c]; exact arrAt2_out (fun c b => Va17 m c b) c
  have hx : V17 m (outs m) c Cert.KernelIdeal.main_v86 = o1 (F := Ideal) m c :=
    (v86_eq m (outs m) c).trans ((outs_12 m Cert.KernelIdeal.main_v86 c).trans (Function.update_self _ _ _))
  rw [e, hx]
  exact Cert.Spec.layerMM_eq_layerG 4096 8192 10240 (by decide) _ _ _ _ _ _ _ (V1 m c Cert.KernelIdeal.main_v35) _ _
    (v92_apply m (outs m) c) (v98_apply m (outs m) c) (v101_apply m (outs m) c) (v104_apply m (outs m) c)
    (v107_apply m (outs m) c) (v110_apply m (outs m) c)

theorem kernel_result : Va19 (F := Ideal) m c Cert.KernelIdeal.main_v116 = tailK (o2 (F := Ideal) m c) := by
  rw [← hV19 m c]
  exact (v116_eq m (outs m) c).trans
    (congrArg (tailK) ((outs_18 m Cert.KernelIdeal.main_v111 c).trans (Function.update_self _ _ _)))

end Kernel

theorem reference_result
    (m' : (ℓ : Loc Cert.ReferenceIdeal.nD Cert.ReferenceIdeal.τ Cert.ReferenceIdeal.sig) → Buf (Elt Ideal) ℓ) (c : Dev Cert.ReferenceIdeal.nD)
    (h4 : ∀ j : Fin 8192, 0 ≤ ((m' ((c.tc : Thread Cert.ReferenceIdeal.nD Cert.ReferenceIdeal.τ).loc Cert.ReferenceIdeal.main_arg4)) (ix1 j)).toInt) (h5 : ∀ j : Fin 8192, 0 ≤ ((m' ((c.tc : Thread Cert.ReferenceIdeal.nD Cert.ReferenceIdeal.τ).loc Cert.ReferenceIdeal.main_arg5)) (ix1 j)).toInt)
    (h6 : ∀ j : Fin 8192, 0 ≤ ((m' ((c.tc : Thread Cert.ReferenceIdeal.nD Cert.ReferenceIdeal.τ).loc Cert.ReferenceIdeal.main_arg6)) (ix1 j)).toInt) (h7 : ∀ j : Fin 8192, 0 ≤ ((m' ((c.tc : Thread Cert.ReferenceIdeal.nD Cert.ReferenceIdeal.τ).loc Cert.ReferenceIdeal.main_arg7)) (ix1 j)).toInt)
    (h8 : ∀ j : Fin 10240, 0 ≤ ((m' ((c.tc : Thread Cert.ReferenceIdeal.nD Cert.ReferenceIdeal.τ).loc Cert.ReferenceIdeal.main_arg8)) (ix1 j)).toInt) (h9 : ∀ j : Fin 10240, 0 ≤ ((m' ((c.tc : Thread Cert.ReferenceIdeal.nD Cert.ReferenceIdeal.τ).loc Cert.ReferenceIdeal.main_arg9)) (ix1 j)).toInt) :
    Cert.ReferenceIdeal.Hand.W m' c (Proc.devRef .tc Cert.ReferenceIdeal.main_v150)
      = Cert.ReferenceIdeal.Hand.tailTerm (F := Ideal)
          (Cert.Spec.layerG 4096 8192 10240 (by decide)
            (Cert.Spec.layerG 4096 8192 8192 (by decide)
              (Cert.Spec.layerG 4096 1024 8192 (by decide) (m' ((c.tc : Thread Cert.ReferenceIdeal.nD Cert.ReferenceIdeal.τ).loc Cert.ReferenceIdeal.main_arg0))
                (Cert.ReferenceIdeal.Hand.coefTerm8192 (F := Ideal) (m' ((c.tc : Thread Cert.ReferenceIdeal.nD Cert.ReferenceIdeal.τ).loc Cert.ReferenceIdeal.main_arg1))) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
              (Cert.ReferenceIdeal.Hand.coefTerm8192 (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
            (Cert.ReferenceIdeal.Hand.coefTerm10240 (F := Ideal) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) := by
  rw [Cert.ReferenceIdeal.Hand.W_v150, Cert.ReferenceIdeal.Hand.W_v146, Cert.ReferenceIdeal.Hand.W_v109, Cert.ReferenceIdeal.Hand.W_v97, Cert.ReferenceIdeal.Hand.W_v60, Cert.ReferenceIdeal.Hand.W_v48,
    Cert.ReferenceIdeal.Hand.W_v11, Cert.ReferenceIdeal.Hand.layerTerm1024_eq _ _ _ _ h4 h5, Cert.ReferenceIdeal.Hand.layerTerm8192_eq _ _ _ _ h6 h7,
    Cert.ReferenceIdeal.Hand.layerTerm8192x10240_eq _ _ _ _ h8 h9]

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.ReferenceIdeal.Hand.W m' c (Proc.devRef .tc Cert.ReferenceIdeal.main_v150)
      = Cert.KernelIdeal.Hand.Va19 m c Cert.KernelIdeal.main_v116 := by
  obtain ⟨a0, a1, a2, a3, a4, a5, a6, a7, a8, a9⟩ := hagree c
  obtain ⟨n4, n5, n6, n7, n8, n9⟩ := idx_nonneg _ _ _ _ _ _ _ _ _ _ (hpre c)
  rw [reference_result m' c (by rw [a4]; exact n4) (by rw [a5]; exact n5) (by rw [a6]; exact n6) (by rw [a7]; exact n7)
      (by rw [a8]; exact n8) (by rw [a9]; exact n9),
    kernel_result m c, o2_eq m c, o1_eq m c, o0_eq m c, Cert.KernelIdeal.Hand.v11_eq m c, Cert.KernelIdeal.Hand.v23_eq m c, Cert.KernelIdeal.Hand.v35_eq m c,
    a0, a1, a2, a3, a4, a5, a6, a7, a8, a9, coef8192_same, coef8192_same, coef10240_same, tail_same]

end Cert.Bridge

end
-- ==== Proof.lean ====
import proofs.«428350_j82789789597763_3_alg».proof.Defs
import proofs.«428350_j82789789597763_3_alg».proof.Proof.Gen.Kernel
import proofs.«428350_j82789789597763_3_alg».proof.Proof.Gen.KernelIdeal
import proofs.«428350_j82789789597763_3_alg».proof.Proof.Gen.ReferenceIdeal
import proofs.«428350_j82789789597763_3_alg».proof.Proof.Gen.Pre_finite_inputs
import proofs.«428350_j82789789597763_3_alg».proof.Proof.KB.Regs
import proofs.«428350_j82789789597763_3_alg».proof.Proof.KI.Regs
import proofs.«428350_j82789789597763_3_alg».proof.Proof.KI.RunAll
import proofs.«428350_j82789789597763_3_alg».proof.Proof.Ref.Run
import proofs.«428350_j82789789597763_3_alg».proof.Proof.Bridge.Final
import Idealize.ShloMosaic.Adequacy
import Idealize.ShloMosaic.Init

-- The three frames, the (empty) idealization ledger, and the value claim: both programs compute three soft-logic layers and one grouped mean.

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.Va19 m c Cert.KernelIdeal.main_v116, Cert.KernelIdeal.Hand.run_all (F := Ideal) m ρ, ?_⟩
  refine (θ_run Cert.ReferenceIdeal.defs _ _).mono (fun _ h c => ⟨(h c).1.trans ?_, (h c).2⟩)
    (Cert.ReferenceIdeal.Hand.run (F := Ideal) m' ρ')
  exact Cert.Bridge.result_eq m m' hpre hagree c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
